-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part5 {F : FTy → Type} [FloatOps F] (main_arg3 : IVec S500000 32) (main_v82 : IVec S_ 1) (main_v84 : IVec S500000 1) : IVec S_ 1 :=
  let main_c_33 : IVec S_ 1 := constantI S_ 1 1#1
  let main_v85 : IVec S_ 1 := (fun x v => Host.reduce IntOp.andi x v reducesTo_S500000_S_d0 h_S_) main_v84 main_c_33
  let main_v86 : IVec S_ 1 := andi main_v82 main_v85
  let main_c_34 : IVec S_ 32 := constantI S_ 32 0#32
  let main_v87 : IVec S500000 32 := broadcastInDim S500000 ![] bcast_S_S500000 main_c_34
  let main_v88 : IVec S500000 1 := cmpi .sge main_arg3 main_v87
  let main_c_35 : IVec S_ 1 := constantI S_ 1 1#1
  let main_v89 : IVec S_ 1 := (fun x v => Host.reduce IntOp.andi x v reducesTo_S500000_S_d0 h_S_) main_v88 main_c_35
  let main_v90 : IVec S_ 1 := andi main_v86 main_v89
  let main_c_36 : IVec S_ 32 := constantI S_ 32 50000#32
  let main_v91 : IVec S500000 32 := broadcastInDim S500000 ![] bcast_S_S500000 main_c_36
  let main_v92 : IVec S500000 1 := cmpi .slt main_arg3 main_v91
  let main_c_37 : IVec S_ 1 := constantI S_ 1 1#1
  let main_v93 : IVec S_ 1 := (fun x v => Host.reduce IntOp.andi x v reducesTo_S500000_S_d0 h_S_) main_v92 main_c_37
  let main_v94 : IVec S_ 1 := andi main_v90 main_v93
  main_v94

def fn_part4 {F : FTy → Type} [FloatOps F] (main_arg2 : IVec S500000 32) (main_arg3 : IVec S500000 32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S500000 32 := broadcastInDim S500000 ![] bcast_S_S500000 main_c_30
  let main_v80 : IVec S500000 1 := cmpi .sge main_arg2 main_v79
  let main_c_31 : IVec S_ 1 := constantI S_ 1 1#1
  let main_v81 : IVec S_ 1 := (fun x v => Host.reduce IntOp.andi x v reducesTo_S500000_S_d0 h_S_) main_v80 main_c_31
  let main_v82 : IVec S_ 1 := andi main_v78 main_v81
  let main_c_32 : IVec S_ 32 := constantI S_ 32 50000#32
  let main_v83 : IVec S500000 32 := broadcastInDim S500000 ![] bcast_S_S500000 main_c_32
  let main_v84 : IVec S500000 1 := cmpi .slt main_arg2 main_v83
  fn_part5 (F := F) main_arg3 main_v82 main_v84

def fn_part3 {F : FTy → Type} [FloatOps F] (main_arg2 : IVec S500000 32) (main_arg3 : IVec S500000 32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_v63 main_v67

def fn_part2 {F : FTy → Type} [FloatOps F] (main_arg2 : IVec S500000 32) (main_arg3 : IVec S500000 32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_arg16 main_arg17 main_v48 main_v49 main_v50

def fn_part1 {F : FTy → Type} [FloatOps F] (main_arg2 : IVec S500000 32) (main_arg3 : IVec S500000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S50000x128 .f32) (main_arg1 : FVec F S500000x128 .f32) (main_arg2 : IVec S500000 32) (main_arg3 : IVec S500000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S500000x128 : Shape := ⟨2, ![500000, 128]⟩
abbrev S500000 : Shape := ⟨1, ![500000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S5000x128 : Shape := ⟨2, ![5000, 128]⟩
abbrev S5000x512 : Shape := ⟨2, ![5000, 512]⟩
abbrev S50000x256 : Shape := ⟨2, ![50000, 256]⟩
abbrev S500000x1 : Shape := ⟨2, ![500000, 1]⟩
abbrev S500000x256 : Shape := ⟨2, ![500000, 256]⟩
abbrev S1x128 : Shape := ⟨2, ![1, 128]⟩
abbrev S125x8x128 : Shape := ⟨3, ![125, 8, 128]⟩
abbrev S4000x128 : Shape := ⟨2, ![4000, 128]⟩
abbrev S4000x256 : Shape := ⟨2, ![4000, 256]⟩
abbrev S1x8x128 : Shape := ⟨3, ![1, 8, 128]⟩
abbrev S8x128 : Shape := ⟨2, ![8, 128]⟩
abbrev S_ : Shape := ⟨0, ![]⟩
abbrev S10x8x128 : Shape := ⟨3, ![10, 8, 128]⟩
abbrev S125x1x128 : Shape := ⟨3, ![125, 1, 128]⟩
abbrev S125x128 : Shape := ⟨2, ![125, 128]⟩
abbrev S10x1x128 : Shape := ⟨3, ![10, 1, 128]⟩
abbrev S10x128 : Shape := ⟨2, ![10, 128]⟩

abbrev nBuf : Space → Nat
  | .hbm => 83
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000, .i32⟩
  | .hbm, ⟨3, _⟩ => ⟨S500000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x512, .f32⟩
  | .hbm, ⟨19, _⟩ => ⟨S512, .f32⟩
  | .hbm, ⟨20, _⟩ => ⟨S1x512, .f32⟩
  | .hbm, ⟨21, _⟩ => ⟨S50000x512, .f32⟩
  | .hbm, ⟨22, _⟩ => ⟨S50000x128, .f32⟩
  | .hbm, ⟨23, _⟩ => ⟨S50000x256, .f32⟩
  | .hbm, ⟨24, _⟩ => ⟨S50000x128, .f32⟩
  | .hbm, ⟨25, _⟩ => ⟨S500000x1, .i32⟩
  | .hbm, ⟨26, _⟩ => ⟨S500000x256, .f32⟩
  | .hbm, ⟨27, _⟩ => ⟨S500000x1, .i32⟩
  | .hbm, ⟨28, _⟩ => ⟨S500000x128, .f32⟩
  | .hbm, ⟨29, _⟩ => ⟨S1x128, .f32⟩
  | .hbm, ⟨30, _⟩ => ⟨S500000x128, .f32⟩
  | .hbm, ⟨31, _⟩ => ⟨S500000x256, .f32⟩
  | .hbm, ⟨32, _⟩ => ⟨S125x8x128, .f32⟩
  | .hbm, ⟨33, _⟩ => ⟨S_, .f32⟩
  | .hbm, ⟨34, _⟩ => ⟨S50000x256, .f32⟩
  | .hbm, ⟨35, _⟩ => ⟨S500000x1, .i32⟩
  | .hbm, ⟨36, _⟩ => ⟨S50000x256, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S10x8x128, .f32⟩
  | .hbm, ⟨41, _⟩ => ⟨S125x1x128, .f32⟩
  | .hbm, ⟨42, _⟩ => ⟨S125x128, .f32⟩
  | .hbm, ⟨43, _⟩ => ⟨S_, .f32⟩
  | .hbm, ⟨44, _⟩ => ⟨S128, .f32⟩
  | .hbm, ⟨45, _⟩ => ⟨S125x1x128, .f32⟩
  | .hbm, ⟨46, _⟩ => ⟨S125x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S10x1x128, .f32⟩
  | .hbm, ⟨60, _⟩ => ⟨S10x128, .f32⟩
  | .hbm, ⟨61, _⟩ => ⟨S_, .f32⟩
  | .hbm, ⟨62, _⟩ => ⟨S128, .f32⟩
  | .hbm, ⟨63, _⟩ => ⟨S10x1x128, .f32⟩
  | .hbm, ⟨64, _⟩ => ⟨S10x128, .f32⟩
  | .hbm, ⟨65, _⟩ => ⟨S_, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S50000x128, .f32⟩
  | .hbm, ⟨80, _⟩ => ⟨S1x128, .f32⟩
  | .hbm, ⟨81, _⟩ => ⟨S1x128, .f32⟩
  | .hbm, ⟨82, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S1x512, .f32⟩
  | .local _ .vmem, ⟨4, _⟩ => ⟨S5000x512, .f32⟩
  | .local _ .vmem, ⟨5, _⟩ => ⟨S5000x512, .f32⟩
  | .local _ .vmem, ⟨6, _⟩ => ⟨S4000x128, .f32⟩
  | .local _ .vmem, ⟨7, _⟩ => ⟨S4000x128, .f32⟩
  | .local _ .vmem, ⟨8, _⟩ => ⟨S4000x256, .f32⟩
  | .local _ .vmem, ⟨9, _⟩ => ⟨S4000x256, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x256, .f32⟩
  | .local _ .vmem, ⟨17, _⟩ => ⟨S4000x256, .f32⟩
  | .local _ .vmem, ⟨18, _⟩ => ⟨S1x8x128, .f32⟩
  | .local _ .vmem, ⟨19, _⟩ => ⟨S1x8x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x8x128, .f32⟩
  | .local _ .vmem, ⟨29, _⟩ => ⟨S1x8x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call0_v0 : Ref sig .tc := ⟨.hbm, 25, rfl⟩
abbrev main_v7 : Ref sig .tc := ⟨.hbm, 26, rfl⟩
abbrev main_call1_v0 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16_0 : Ref sig .tc := ⟨.hbm, 39, rfl⟩
abbrev main_v16_1 : Ref sig .tc := ⟨.hbm, 40, rfl⟩
abbrev main_v17 : Ref sig .tc := ⟨.hbm, 41, rfl⟩
abbrev main_v18 : Ref sig .tc := ⟨.hbm, 42, rfl⟩
abbrev main_cst_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  slices_S50000x512_S50000x128_0_0 : S50000x512.Slices ![0, 0] S50000x128
  slices_S50000x512_S50000x256_0_128 : S50000x512.Slices ![0, 128] S50000x256
  slices_S50000x512_S50000x128_0_384 : S50000x512.Slices ![0, 384] S50000x128
  bcast_S500000_S500000x1_0 : S500000.BroadcastsInDim S500000x1 (![0] : Fin 1 → Fin S500000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x256_S4000x128_0_0 : ∀ a, (![0, 0] : Fin 2 → Nat) a + S4000x128.size a ≤ S4000x256.size a
  shapeCasts_S4000x128_S4000x128 : S4000x128.ShapeCasts S4000x128
  inb_S4000x256_S4000x128_0_128 : ∀ a, (![0, 128] : Fin 2 → Nat) a + S4000x128.size a ≤ S4000x256.size a
  reduces_S4000x128_S128 : S4000x128.Reduces [0] S128
  iota_S8x128_d0_w32 : S8x128.Iotas .tc 32 [0]
  broadcasts_S1x128_S8x128 : S1x128.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S5000x128_S5000x128 : S5000x128.ShapeCasts S5000x128
  reduces_S5000x128_S128 : S5000x128.Reduces [0] S128
  slices_S125x8x128_S125x1x128_0_0_0 : S125x8x128.Slices ![0, 0, 0] S125x1x128
  shapeCasts_S125x1x128_S125x128 : S125x1x128.ShapeCasts S125x128
  reducesTo_S125x128_S128_d0 : S125x128.ReducesTo [0] S128
  h_S_ : 0 < S_.numel
  slices_S125x8x128_S125x1x128_0_1_0 : S125x8x128.Slices ![0, 1, 0] S125x1x128
  bcast_S_S128 : S_.BroadcastsInDim S128 (![] : Fin 0 → Fin S128.rank)
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  slices_S10x8x128_S10x1x128_0_1_0 : S10x8x128.Slices ![0, 1, 0] S10x1x128
  broadcasts_S1x128_S5000x128 : S1x128.Broadcasts S5000x128
  dot_S5000x128_S128x512_S5000x512_1_0_0_1_n_n_wf : DotDims.WF S5000x128 S128x512 S5000x512 [1] [0] [0] [1] [] []
  gather_S50000x256_S500000x1_S500000x256_1_0_n_n_0_1_1256_wf : GatherDims.WF S50000x256 S500000x1 S500000x256 [1] [0] [] [0] [] 1 ![1, 256]
  gather_S50000x128_S500000x1_S500000x128_1_0_n_n_0_1_1128_wf : GatherDims.WF S50000x128 S500000x1 S500000x128 [1] [0] [] [0] [] 1 ![1, 128]
  dot_S4000x128_S128x128_S4000x128_1_0_0_1_n_n_wf : DotDims.WF S4000x128 S128x128 S4000x128 [1] [0] [0] [1] [] []
  scatter_S50000x256_S500000x1_S500000x256_1_0_0_1_wf : ScatterDims.WF S50000x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x512.size a ≤ S50000x512.size a
  hwx0_3 : ∀ i : grid0.Coords, EltTy.bits .f32 = 32 ∨ (Rect.block (s := S50000x512) S5000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .f32 = 32 ∨ (Rect.block (s := S500000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S500000x256.size a
  hwx1_1 : ∀ i : grid1.Coords, EltTy.bits .f32 = 32 ∨ (Rect.block (s := S500000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S500000x128.size a
  hwx1_2 : ∀ i : grid1.Coords, EltTy.bits .f32 = 32 ∨ (Rect.block (s := S500000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S500000x128.size a
  hwx1_5 : ∀ i : grid1.Coords, EltTy.bits .f32 = 32 ∨ (Rect.block (s := S500000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x256.size a ≤ S500000x256.size a
  hwx1_6 : ∀ i : grid1.Coords, EltTy.bits .f32 = 32 ∨ (Rect.block (s := S500000x256) S4000x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x128.size a ≤ S125x8x128.size a
  hwx1_7 : ∀ i : grid1.Coords, EltTy.bits .f32 = 32 ∨ (Rect.block (s := S125x8x128) S1x8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x128.size a ≤ S10x8x128.size a
  hwx2_4 : ∀ i : grid2.Coords, EltTy.bits .f32 = 32 ∨ (Rect.block (s := S10x8x128) S1x8x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S500000x128.size a
  hwx4_6 : ∀ i : grid4.Coords, EltTy.bits .f32 = 32 ∨ (Rect.block (s := S500000x128) S5000x128.size (cc4_transform_6 i) (hinb4_6 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S4000x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_2) S1x8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_1) S1x8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v16_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v10_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v48) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v49) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v50) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000 : Shape := ⟨1, ![500000]⟩
abbrev S128x128 : Shape := ⟨2, ![128, 128]⟩
abbrev S128 : Shape := ⟨1, ![128]⟩
abbrev S1x128 : Shape := ⟨2, ![1, 128]⟩
abbrev S_ : Shape := ⟨0, ![]⟩
abbrev S500000x1 : Shape := ⟨2, ![500000, 1]⟩

abbrev nBuf : Space → Nat
  | .hbm => 185
  | .vmem => 0
  | .smem => 0
  | _ => 0

abbrev hbmTy0_0 (i : Nat) : BufTy := match i % 128 with
  | 0 => ⟨S50000x128, .f32⟩
  | 1 => ⟨S500000x128, .f32⟩
  | 2 => ⟨S500000, .i32⟩
  | 3 => ⟨S500000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S500000x128, .f32⟩
  | 35 => ⟨S1x128, .f32⟩
  | 36 => ⟨S500000x128, .f32⟩
  | 37 => ⟨S500000x128, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S500000x128, .f32⟩
  | 57 => ⟨S500000x128, .f32⟩
  | 58 => ⟨S500000x128, .f32⟩
  | 59 => ⟨S500000x128, .f32⟩
  | 60 => ⟨S_, .f32⟩
  | 61 => ⟨S500000x128, .f32⟩
  | 62 => ⟨S500000x128, .f32⟩
  | 63 => ⟨S_, .f32⟩
  | 64 => ⟨S500000x128, .f32⟩
  | 65 => ⟨S500000x128, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x128, .f32⟩
  | 75 => ⟨S500000x128, .f32⟩
  | 76 => ⟨S_, .f32⟩
  | 77 => ⟨S50000x128, .f32⟩
  | 78 => ⟨S500000x1, .i32⟩
  | 79 => ⟨S50000x128, .f32⟩
  | 80 => ⟨S_, .f32⟩
  | 81 => ⟨S50000x128, .f32⟩
  | 82 => ⟨S500000x1, .i32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S50000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S500000x128, .f32⟩
  | 21 => ⟨S500000x128, .f32⟩
  | 22 => ⟨S500000x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S500000x128, .f32⟩
  | 38 => ⟨S500000x128, .f32⟩
  | 39 => ⟨S_, .f32⟩
  | 40 => ⟨S128, .f32⟩
  | 41 => ⟨S128, .f32⟩
  | 42 => ⟨S128, .f32⟩
  | 43 => ⟨S1x128, .f32⟩
  | 44 => ⟨S500000x128, .f32⟩
  | 45 => ⟨S500000x128, .f32⟩
  | 46 => ⟨S1x128, .f32⟩
  | 47 => ⟨S500000x128, .f32⟩
  | 48 => ⟨S500000x128, .f32⟩
  | 49 => ⟨S1x128, .f32⟩
  | 50 => ⟨S500000x128, .f32⟩
  | 51 => ⟨S500000x128, .f32⟩
  | 52 => ⟨S_, .f32⟩
  | 53 => ⟨S500000x128, .f32⟩
  | 54 => ⟨S500000x128, .f32⟩
  | 55 => ⟨S50000x128, .f32⟩
  | 56 => ⟨S500000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_1 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_cst_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_cst_1 : Ref sig .tc := ⟨.hbm, 105, rfl⟩
abbrev main_call0_v8 : Ref sig .tc := ⟨.hbm, 106, rfl⟩
abbrev main_call0_cst_2 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_cst_3 : Ref sig .tc := ⟨.hbm, 111, rfl⟩
abbrev main_call0_v12 : Ref sig .tc := ⟨.hbm, 112, rfl⟩
abbrev main_call0_cst_4 : Ref sig .tc := ⟨.hbm, 113, rfl⟩
abbrev main_call0_call0_v0 : Ref sig .tc := ⟨.hbm, 114, rfl⟩
abbrev main_call0_call0_v1 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_12 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_call1_cst : Ref sig .tc := ⟨.hbm, 133, rfl⟩
abbrev main_call1_v0 : Ref sig .tc := ⟨.hbm, 134, rfl⟩
abbrev main_v79 : Ref sig .tc := ⟨.hbm, 135, rfl⟩
abbrev main_cst_13 : Ref sig .tc := ⟨.hbm, 136, rfl⟩
abbrev main_v80 : Ref sig .tc := ⟨.hbm, 137, rfl⟩
abbrev main_cst_14 : Ref sig .tc := ⟨.hbm, 138, rfl⟩
abbrev main_v81 : Ref sig .tc := ⟨.hbm, 139, rfl⟩
abbrev main_v82 : Ref sig .tc := ⟨.hbm, 140, rfl⟩
abbrev main_c_15 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_cst_3 : Ref sig .tc := ⟨.hbm, 158, rfl⟩
abbrev main_call2_v12 : Ref sig .tc := ⟨.hbm, 159, rfl⟩
abbrev main_call2_cst_4 : Ref sig .tc := ⟨.hbm, 160, rfl⟩
abbrev main_call2_call0_v0 : Ref sig .tc := ⟨.hbm, 161, rfl⟩
abbrev main_call2_call0_v1 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_cst_16 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_call3_cst : Ref sig .tc := ⟨.hbm, 180, rfl⟩
abbrev main_call3_v0 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S500000x128_S128_d0 : S500000x128.ReducesTo [0] S128
  dot_S50000x128_S128x128_S50000x128_1_0_0_1_n_n_wf : DotDims.WF S50000x128 S128x128 S50000x128 [1] [0] [0] [1] [] []
  dot_S500000x128_S128x128_S500000x128_1_0_0_1_n_n_wf : DotDims.WF S500000x128 S128x128 S500000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.KI.Reg0.lean ====
import proofs.«413210_j12120397710134_3_alg».proof.Proof.Gen.KernelIdeal.Launch
import proofs.«413210_j12120397710134_3_alg».proof.Proof.Gen.KernelIdeal.Skeleton
import proofs.«413210_j12120397710134_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev featBox : Rect S5000x128 := Rect.unit (s := S5000x128) ![0, 0] S5000x128.size inb_S5000x128_S5000x128_0_0
abbrev wgtBox : Rect S128x512 := Rect.unit (s := S128x512) ![0, 0] S128x512.size inb_S128x512_S128x512_0_0
abbrev biasBox : Rect S1x512 := Rect.unit (s := S1x512) ![0, 0] S1x512.size inb_S1x512_S1x512_0_0
abbrev projBox : Rect S5000x512 := Rect.unit (s := S5000x512) ![0, 0] S5000x512.size inb_S5000x512_S5000x512_0_0
def out0_3 (x0 : Vec F S5000x128 .f32) (x1 : Vec F S128x512 .f32) (x2 : Vec F S1x512 .f32) : Vec F S5000x512 .f32 :=
  View.canon [⟨projBox, k0_pay1 (View.ld x0 featBox) (View.ld x1 wgtBox) (View.ld x2 biasBox)⟩]
theorem projBox_fills (p : Vec F S5000x512 .f32) (y : S5000x512.Idx) :
    ∃ pc ∈ ([⟨projBox, p⟩] : List (View.Piece (Elt F) S5000x512 .f32)), y ∈ pc.1.set :=
  View.cover_of_tiled [⟨projBox, p⟩] S5000x512.size (by rfl) y
set_option maxHeartbeats 1000000 in
theorem node_proj_triple (c : Dev nD) (E : Set ℕ) (i : grid0.Coords)
    (arg1 : Memref sig .tc .vmem S5000x128 .f32) (harg1 : arg1.IsWhole) (arg2 : Memref sig .tc .vmem S128x512 .f32) (harg2 : arg2.IsWhole)
    (arg3 : Memref sig .tc .vmem S1x512 .f32) (harg3 : arg3.IsWhole) (arg4 : Memref sig .tc .vmem S5000x512 .f32) (harg4 : arg4.IsWhole)
    (x0 : Vec F S5000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projBox_fills _)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0 (c : Dev nD) (t : Fin cfg0.N) :
    (∀ d, (dat0 V c).before 0 t d = iblk0 V c 0 t) ∧
    (∀ d, (dat0 V c).before 1 t d = iblk0 V c 1 t) ∧
    (∀ d, (dat0 V c).before 2 t d = iblk0 V c 2 t) := by
  refine ⟨?_, ?_, ?_⟩ <;> intro d <;>
    exact ((dat0 V c).before_in_eq_fetched _ rfl (fun _ => rfl) (fun _ _ _ => rfl)
      (fun t => by unfold Dat.blockOf; rw [A_eq0]; dsimp only [dat0]; unfold iblk0; try rfl) t d).trans
      (by unfold Dat.fetched Dat.blockOf iblk0; rw [A_eq0]; try rfl)
def handedAt (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
def returnedAt (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))
theorem body_at_point (c : Dev nD) (t : Fin cfg0.N) :
    handedAt V c t ⊢ wp frame (wpE (defs₀ (F := F)) Variants.none c none) Set.univ (bodyAt0 t) (fun _ => returnedAt V c t) := by
  unfold handedAt returnedAt bodyAt0
  obtain ⟨b0, b1, b2⟩ := before0 V c t
  simp only [b0, b1, b2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (node_proj_triple c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3
theorem body_obligation0 (c : Dev nD) : BodyObligation (dat0 (F := F) V c) (defs₀ (F := F)) Variants.none () Set.univ := fun t => by
  rw [bigSep_W0, bigSep_W0]
  exact body_at_point V c t
end Cert.KernelIdeal.Hand
end
-- ==== Proof.KI.Reg1.lean ====
import proofs.«413210_j12120397710134_3_alg».proof.Proof.Gen.KernelIdeal.Launch
import proofs.«413210_j12120397710134_3_alg».proof.Proof.Gen.KernelIdeal.Skeleton
import proofs.«413210_j12120397710134_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev gateRows : Rect S4000x128 := Rect.unit (s := S4000x128) ![0, 0] S4000x128.size inb_S4000x128_S4000x128_0_0
abbrev gateWeight : Rect S128x128 := Rect.unit (s := S128x128) ![0, 0] S128x128.size inb_S128x128_S128x128_0_0
abbrev gateBias : Rect S1x128 := Rect.unit (s := S1x128) ![0, 0] S1x128.size inb_S1x128_S1x128_0_0
abbrev gatePairLo : Rect S4000x256 := Rect.unit (s := S4000x256) ![0, 0] S4000x128.size inb_S4000x256_S4000x128_0_0
abbrev gatePairHi : Rect S4000x256 := Rect.unit (s := S4000x256) ![0, 128] S4000x128.size inb_S4000x256_S4000x128_0_128
abbrev gateStats : Rect S1x8x128 := Rect.unit (s := S1x8x128) ![0, 0, 0] S1x8x128.size inb_S1x8x128_S1x8x128_0_0_0
def out1_5 (x0 : Vec F S4000x128 .f32) (x1 : Vec F S4000x256 .f32) (x2 : Vec F S4000x128 .f32) (x3 : Vec F S128x128 .f32) (x4 : Vec F S1x128 .f32) : Vec F S4000x128 .f32 :=
  View.canon [⟨gateRows, k1_pay2 (View.ld x0 gateRows) (View.ld x3 gateWeight) (View.ld x4 gateBias) (View.ld x1 gatePairHi) (View.ld x2 gateRows)⟩]
def out1_6 (x0 : Vec F S4000x128 .f32) (x1 : Vec F S4000x256 .f32) (x2 : Vec F S4000x128 .f32) (x3 : Vec F S128x128 .f32) (x4 : Vec F S1x128 .f32) : Vec F S4000x256 .f32 :=
  View.canon [⟨gatePairHi, k1_pay3 (View.ld x0 gateRows) (View.ld x3 gateWeight) (View.ld x4 gateBias) (View.ld x1 gatePairHi) (View.ld x2 gateRows)⟩,
    ⟨gatePairLo, k1_pay4 (View.ld x0 gateRows) (View.ld x3 gateWeight) (View.ld x4 gateBias) (View.ld x1 gatePairLo) (View.ld x1 gatePairHi) (View.ld x2 gateRows)⟩]
def out1_7 (x0 : Vec F S4000x128 .f32) (x1 : Vec F S4000x256 .f32) (x2 : Vec F S4000x128 .f32) (x3 : Vec F S128x128 .f32) (x4 : Vec F S1x128 .f32) : Vec F S1x8x128 .f32 :=
  View.canon [⟨gateStats, k1_pay1 (k1_pay5 (View.ld x0 gateRows) (View.ld x3 gateWeight) (View.ld x4 gateBias) (View.ld x1 gatePairHi) (View.ld x2 gateRows))
    (iota .tc S8x128 32 [0] iota_S8x128_d0_w32) k1_pay6 (k1_pay7 (View.ld x0 gateRows) (View.ld x3 gateWeight) (View.ld x4 gateBias) (View.ld x1 gatePairHi) (View.ld x2 gateRows)) k1_pay8⟩]
theorem cover1_5 (p0 : Vec F S4000x128 .f32) (y : S4000x128.Idx) :
    ∃ pc ∈ ([⟨gateRows, p0⟩] : List (View.Piece (Elt F) S4000x128 .f32)), y ∈ pc.1.set :=
  View.cover_of_tiled [⟨gateRows, p0⟩] S4000x128.size (by rfl) y
theorem cover1_6 (p0 : Vec F S4000x128 .f32) (p1 : Vec F S4000x128 .f32) (y : S4000x256.Idx) :
    ∃ pc ∈ ([⟨gatePairHi, p0⟩, ⟨gatePairLo, p1⟩] : List (View.Piece (Elt F) S4000x256 .f32)), y ∈ pc.1.set :=
  View.cover_of_tiled [⟨gatePairHi, p0⟩, ⟨gatePairLo, p1⟩] S4000x128.size (by rfl) y
theorem cover1_7 (p0 : Vec F S1x8x128 .f32) (y : S1x8x128.Idx) :
    ∃ pc ∈ ([⟨gateStats, p0⟩] : List (View.Piece (Elt F) S1x8x128 .f32)), y ∈ pc.1.set :=
  View.cover_of_tiled [⟨gateStats, p0⟩] S1x8x128.size (by rfl) y
set_option maxHeartbeats 1000000 in
theorem sound_kernel1 (c : Dev nD) (E : Set ℕ) (i : grid1.Coords)
    (arg1 : Memref sig .tc .vmem S4000x128 .f32) (harg1 : arg1.IsWhole)
    (arg2 : Memref sig .tc .vmem S4000x256 .f32) (harg2 : arg2.IsWhole)
    (arg3 : Memref sig .tc .vmem S4000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S4000x128 .f32) (harg6 : arg6.IsWhole)
    (arg7 : Memref sig .tc .vmem S4000x256 .f32) (harg7 : arg7.IsWhole)
    (arg8 : Memref sig .tc .vmem S1x8x128 .f32) (harg8 : arg8.IsWhole)
    (x0 : Vec F S4000x128 .f32) (x1 : Vec F S4000x256 .f32) (x2 : Vec F S4000x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)
            ∗ owns (c : Thread nD τ) arg7 fullShare (out1_6 x0 x1 x2 x3 x4)
            ∗ owns (c : Thread nD τ) arg8 fullShare (out1_7 x0 x1 x2 x3 x4)) -∗ K ⟨⟩))
      ⊢ wp frame (wpE (defs₀ (F := F)) Variants.none c none) E (cc1__edge_gate_kernel i arg1 harg1 arg2 harg2 arg3 harg3 arg4 harg4 arg5 harg5 arg6 harg6 arg7 harg7 arg8 harg8) K := by
  simp only [cc1__edge_gate_kernel_eq_skeleton]; unfold cc1__edge_gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover1_5 _)
  isplitl [H6]
  · iexists _; isplitr
    swap; · iexact H6
    ipureintro
    try dsimp only
    exact View.read_writes_eq_canon _ _ _ (cover1_6 _ _)
  iexists _; isplitr
  swap; · iexact H7
  ipureintro
  try dsimp only
  exact View.read_writes_eq_canon _ _ _ (cover1_7 _)
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]
theorem before1 (c : Dev nD) (t : Fin cfg1.N) :
    (∀ d, (dat1 V c).before 0 t d = iblk1 V c 0 t) ∧
    (∀ d, (dat1 V c).before 1 t d = iblk1 V c 1 t) ∧
    (∀ d, (dat1 V c).before 2 t d = iblk1 V c 2 t) ∧
    (∀ d, (dat1 V c).before 3 t d = iblk1 V c 3 t) ∧
    (∀ d, (dat1 V c).before 4 t d = iblk1 V c 4 t) := by
  refine ⟨?_, ?_, ?_, ?_, ?_⟩ <;> intro d <;>
    exact ((dat1 V c).before_in_eq_fetched _ rfl (fun _ => rfl) (fun _ _ _ => rfl)
      (fun t => by unfold Dat.blockOf; rw [A_eq1]; dsimp only [dat1]; unfold iblk1; try rfl) t d).trans
      (by unfold Dat.fetched Dat.blockOf iblk1; rw [A_eq1]; try rfl)
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4⟩ := before1 V c t
  simp only [b0, b1, b2, b3, b4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7
theorem body_obligation1 (c : Dev nD) : BodyObligation (dat1 (F := F) V c) (defs₀ (F := F)) Variants.none () Set.univ := fun t => by
  rw [bigSep_W1, bigSep_W1]
  exact sound_body1 V c t
end Cert.KernelIdeal.Hand
end
-- ==== Proof.KI.Reg2.lean ====
import proofs.«413210_j12120397710134_3_alg».proof.Proof.Gen.KernelIdeal.Launch
import proofs.«413210_j12120397710134_3_alg».proof.Proof.Gen.KernelIdeal.Skeleton
import proofs.«413210_j12120397710134_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev rows2 : Rect S5000x128 := Rect.unit (s := S5000x128) ![0, 0] S5000x128.size inb_S5000x128_S5000x128_0_0
abbrev tile2 : Rect S1x8x128 := Rect.unit (s := S1x8x128) ![0, 0, 0] S1x8x128.size inb_S1x8x128_S1x8x128_0_0_0
def out2_3 (x0 x1 x2 : Vec F S5000x128 .f32) : Vec F S5000x128 .f32 :=
  View.canon [⟨rows2, k2_pay1 (View.ld x0 rows2) (View.ld x1 rows2) (View.ld x2 rows2)⟩]
def out2_4 (x0 x1 x2 : Vec F S5000x128 .f32) : Vec F S1x8x128 .f32 :=
  View.canon [⟨tile2, k2_pay2 (View.ld x0 rows2) (View.ld x1 rows2) (View.ld x2 rows2)⟩]
theorem out2_3_fills (p : Vec F S5000x128 .f32) (y : S5000x128.Idx) :
    ∃ pc ∈ ([⟨rows2, p⟩] : List (View.Piece (Elt F) S5000x128 .f32)), y ∈ pc.1.set :=
  View.cover_of_tiled [⟨rows2, p⟩] S5000x128.size (by rfl) y
theorem out2_4_fills (p : Vec F S1x8x128 .f32) (y : S1x8x128.Idx) :
    ∃ pc ∈ ([⟨tile2, p⟩] : List (View.Piece (Elt F) S1x8x128 .f32)), y ∈ pc.1.set :=
  View.cover_of_tiled [⟨tile2, p⟩] S1x8x128.size (by rfl) y
set_option maxHeartbeats 1000000 in
theorem combine_kernel_runs (c : Dev nD) (E : Set ℕ) (i : grid2.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole) (a4 : Memref sig .tc .vmem S5000x128 .f32) (h4 : a4.IsWhole)
    (a5 : Memref sig .tc .vmem S1x8x128 .f32) (h5 : a5.IsWhole)
    (x0 x1 x2 : Vec F S5000x128 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (out2_3 x0 x1 x2) ∗ owns (c : Thread nD τ) a5 fullShare (out2_4 x0 x1 x2)) -∗ K ⟨⟩))
      ⊢ wp frame (wpE (defs₀ (F := F)) Variants.none c none) E (cc2__node_combine_kernel i a1 h1 a2 h2 a3 h3 a4 h4 a5 h5) K := by
  simp only [cc2__node_combine_kernel_eq_skeleton]; unfold cc2__node_combine_kernel_skel
  unfold owns
  iintro ⟨⟨%f0, %e0, G0⟩, ⟨%f1, %e1, G1⟩, ⟨%f2, %e2, G2⟩, ⟨%d3, %f3, -, G3⟩, ⟨%d4, %f4, -, G4⟩, Hk⟩
  subst e0 e1 e2
  sl_exec
  sl_step
  iapply Hk
  isplitl [G0]
  · iexists f0; isplitr; · ipureintro; rfl
    iexact G0
  isplitl [G1]
  · iexists f1; isplitr; · ipureintro; rfl
    iexact G1
  isplitl [G2]
  · iexists f2; isplitr; · ipureintro; rfl
    iexact G2
  isplitl [G3]
  · iexists _; isplitr
    swap; · iexact G3
    ipureintro
    exact View.read_writes_eq_canon _ _ _ (out2_3_fills _)
  iexists _; isplitr
  swap; · iexact G4
  ipureintro
  exact View.read_writes_eq_canon _ _ _ (out2_4_fills _)
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0
theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]
theorem after2_4 (c : Dev nD) (t : Fin cfg2.N) :
    (dat2 V c).after 4 t = out2_4 (iblk2 V c 0 t) (iblk2 V c 1 t) (iblk2 V c 2 t) := by dsimp only [dat2]
theorem held2_0 (c : Dev nD) (t : Fin cfg2.N) (d) : (dat2 V c).before 0 t d = iblk2 V c 0 t := by
  rw [(dat2 V c).before_fetched 0 t (fetch2_0 t) d]
  unfold Dat.fetched Dat.blockOf iblk2
  rw [A_eq2]; try rfl
theorem held2_1 (c : Dev nD) (t : Fin cfg2.N) (d) : (dat2 V c).before 1 t d = iblk2 V c 1 t := by
  rw [(dat2 V c).before_fetched 1 t (fetch2_1 t) d]
  unfold Dat.fetched Dat.blockOf iblk2
  rw [A_eq2]; try rfl
theorem held2_2 (c : Dev nD) (t : Fin cfg2.N) (d) : (dat2 V c).before 2 t d = iblk2 V c 2 t := by
  rw [(dat2 V c).before_fetched 2 t (fetch2_2 t) d]
  unfold Dat.fetched Dat.blockOf iblk2
  rw [A_eq2]; try rfl
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))
theorem combine_at_point (c : Dev nD) (t : Fin cfg2.N) :
    given2 V c t ⊢ wp frame (wpE (defs₀ (F := F)) Variants.none c none) Set.univ (bodyAt2 t) (fun _ => returned2 V c t) := by
  unfold given2 returned2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, G0⟩, ⟨%d1, G1⟩, ⟨%d2, G2⟩, ⟨%d3, G3⟩, ⟨%d4, G4⟩⟩
  iapply (combine_kernel_runs c Set.univ (grid2.coords t) _ _ _ _ _ _ _ _ _ _
    (iblk2 V c 0 t) (iblk2 V c 1 t) (iblk2 V c 2 t) _)
  isplitl [G0]; · iexact G0
  isplitl [G1]; · iexact G1
  isplitl [G2]; · iexact G2
  isplitl [G3]; · iexists _; iexact G3
  isplitl [G4]; · iexists _; iexact G4
  iintro ⟨G0, G1, G2, G3, G4⟩
  isplitl [HΦ]; · iexact HΦ
  isplitl [Ho]; · iexact Ho
  isplitl [G0]; · iexact G0
  isplitl [G1]; · iexact G1
  isplitl [G2]; · iexact G2
  isplitl [G3]; · iexact G3
  iexact G4
theorem body_obligation2 (c : Dev nD) : BodyObligation (dat2 (F := F) V c) (defs₀ (F := F)) Variants.none () Set.univ := fun t => by
  rw [bigSep_W2, bigSep_W2]
  exact combine_at_point V c t
end Cert.KernelIdeal.Hand
end
-- ==== Proof.KI.Reg3.lean ====
import proofs.«413210_j12120397710134_3_alg».proof.Proof.Gen.KernelIdeal.Launch
import proofs.«413210_j12120397710134_3_alg».proof.Proof.Gen.KernelIdeal.Skeleton
import proofs.«413210_j12120397710134_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
abbrev wholeBlock : Rect S5000x128 := Rect.unit (s := S5000x128) ![0, 0] S5000x128.size inb_S5000x128_S5000x128_0_0
abbrev wholeRow : Rect S1x128 := Rect.unit (s := S1x128) ![0, 0] S1x128.size inb_S1x128_S1x128_0_0
def out3_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨wholeBlock, k3_pay1 (View.ld x0 wholeBlock) (View.ld x3 wholeRow) (View.ld x2 wholeRow) (View.ld x4 wholeRow)
    (View.ld x5 wholeRow) (View.ld x1 wholeBlock)⟩]
theorem result_covered (p : Vec F S5000x128 .f32) (y : S5000x128.Idx) :
    ∃ pc ∈ ([⟨wholeBlock, p⟩] : List (View.Piece (Elt F) S5000x128 .f32)), y ∈ pc.1.set :=
  View.cover_of_tiled [⟨wholeBlock, p⟩] S5000x128.size (by rfl) y
set_option maxHeartbeats 1000000 in
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__bn_relu_res_kernel i arg1 harg1 arg2 harg2 arg3 harg3 arg4 harg4 arg5 harg5 arg6 harg6 arg7 harg7) K := by
  simp only [cc3__bn_relu_res_kernel_eq_skeleton]; unfold cc3__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (result_covered _)
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0
theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by dsimp only [dat3]
theorem before3 (c : Dev nD) (t : Fin cfg3.N) :
    (∀ d, (dat3 V c).before 0 t d = iblk3 V c 0 t) ∧
    (∀ d, (dat3 V c).before 1 t d = iblk3 V c 1 t) ∧
    (∀ d, (dat3 V c).before 2 t d = iblk3 V c 2 t) ∧
    (∀ d, (dat3 V c).before 3 t d = iblk3 V c 3 t) ∧
    (∀ d, (dat3 V c).before 4 t d = iblk3 V c 4 t) ∧
    (∀ d, (dat3 V c).before 5 t d = iblk3 V c 5 t) := by
  refine ⟨?_, ?_, ?_, ?_, ?_, ?_⟩ <;> intro d <;>
    exact ((dat3 V c).before_in_eq_fetched _ rfl (fun _ => rfl) (fun _ _ _ => rfl)
      (fun t => by unfold Dat.blockOf; rw [A_eq3]; dsimp only [dat3]; unfold iblk3; try rfl) t d).trans
      (by unfold Dat.fetched Dat.blockOf iblk3; rw [A_eq3]; try rfl)
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  obtain ⟨b0, b1, b2, b3, b4, b5⟩ := before3 V c t
  simp only [b0, b1, b2, b3, b4, b5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6
theorem body_obligation3 (c : Dev nD) : BodyObligation (dat3 (F := F) V c) (defs₀ (F := F)) Variants.none () Set.univ := fun t => by
  rw [bigSep_W3, bigSep_W3]
  exact sound_body3 V c t
end Cert.KernelIdeal.Hand
-- ==== Proof.KI.Reg4.lean ====
import proofs.«413210_j12120397710134_3_alg».proof.Proof.Gen.KernelIdeal.Launch
import proofs.«413210_j12120397710134_3_alg».proof.Proof.Gen.KernelIdeal.Skeleton
import proofs.«413210_j12120397710134_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
section Region4
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev blockRect4 : Rect S5000x128 := Rect.unit (s := S5000x128) ![0, 0] S5000x128.size inb_S5000x128_S5000x128_0_0
abbrev rowRect4 : Rect S1x128 := Rect.unit (s := S1x128) ![0, 0] S1x128.size inb_S1x128_S1x128_0_0
def out4_6 (x0 x1 : Vec F S5000x128 .f32) (x2 x3 x4 x5 : Vec F S1x128 .f32) : Vec F S5000x128 .f32 :=
  View.canon [⟨blockRect4, k4_pay1 (View.ld x0 blockRect4) (View.ld x3 rowRect4) (View.ld x2 rowRect4) (View.ld x4 rowRect4) (View.ld x5 rowRect4) (View.ld x1 blockRect4)⟩]
theorem cover4_6 (p0 : Vec F S5000x128 .f32) (y : S5000x128.Idx) :
    ∃ pc ∈ ([⟨blockRect4, p0⟩] : List (View.Piece (Elt F) S5000x128 .f32)), y ∈ pc.1.set :=
  View.cover_of_tiled [⟨blockRect4, p0⟩] S5000x128.size (by rfl) y
set_option maxHeartbeats 1000000 in
theorem sound_kernel4 (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__bn_relu_res_kernel i arg1 harg1 arg2 harg2 arg3 harg3 arg4 harg4 arg5 harg5 arg6 harg6 arg7 harg7) K := by
  simp only [cc4__bn_relu_res_kernel_eq_skeleton]; unfold cc4__bn_relu_res_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0
theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by
  dsimp only [dat4]
theorem before4 (c : Dev nD) (t : Fin cfg4.N) :
    (∀ d, (dat4 V c).before 0 t d = iblk4 V c 0 t) ∧
    (∀ d, (dat4 V c).before 1 t d = iblk4 V c 1 t) ∧
    (∀ d, (dat4 V c).before 2 t d = iblk4 V c 2 t) ∧
    (∀ d, (dat4 V c).before 3 t d = iblk4 V c 3 t) ∧
    (∀ d, (dat4 V c).before 4 t d = iblk4 V c 4 t) ∧
    (∀ d, (dat4 V c).before 5 t d = iblk4 V c 5 t) := by
  refine ⟨?_, ?_, ?_, ?_, ?_, ?_⟩ <;> intro d <;>
    exact ((dat4 V c).before_in_eq_fetched _ rfl (fun _ => rfl) (fun _ _ _ => rfl)
      (fun t => by unfold Dat.blockOf; rw [A_eq4]; dsimp only [dat4]; unfold iblk4; try rfl) t d).trans
      (by unfold Dat.fetched Dat.blockOf iblk4; rw [A_eq4]; try rfl)
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  obtain ⟨b0, b1, b2, b3, b4, b5⟩ := before4 V c t
  simp only [b0, b1, b2, b3, b4, b5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6
theorem body_obligation4 (c : Dev nD) : BodyObligation (dat4 (F := F) V c) (defs₀ (F := F)) Variants.none () Set.univ := fun t => by
  rw [bigSep_W4, bigSep_W4]
  exact sound_body4 V c t
end Region4
end Cert.KernelIdeal.Hand
end
-- ==== Proof.KI.Run.lean ====
import proofs.«413210_j12120397710134_3_alg».proof.Proof.KI.Reg0
import proofs.«413210_j12120397710134_3_alg».proof.Proof.KI.Reg1
import proofs.«413210_j12120397710134_3_alg».proof.Proof.KI.Reg2
import proofs.«413210_j12120397710134_3_alg».proof.Proof.KI.Reg3
import proofs.«413210_j12120397710134_3_alg».proof.Proof.KI.Reg4
import proofs.«413210_j12120397710134_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
abbrev W0 (m : (ℓ : Loc nD τ sig) → Buf (Elt F) ℓ) (ρ : Dev nD → PrngReg) : Dev nD → Valuation τ sig (Elt F) :=
  fun c b => m ((c : Dev nD), b)
variable (m : (ℓ : Loc nD τ sig) → Buf (Elt F) ℓ) (ρ : Dev nD → PrngReg)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem W2_of (c : Dev nD) (r : Ref sig .tc) (h : r ∉ ([main_v3] : List (Ref sig .tc))) :
    W2 m ρ c (Proc.devRef .tc r) = W1 m ρ c (Proc.devRef .tc r) := by
  by_cases hr : ∃ w, Pipeline.arrRef spec0 w = r
  · obtain ⟨w, rfl⟩ := hr
    have hin : (cfg0.win w).isOut = false :=
      (by decide : ∀ w : Fin cfg0.W, Pipeline.arrRef spec0 w ∉ ([main_v3] : List (Ref sig .tc)) → (cfg0.win w).isOut = false) w h
    exact (W2_arr m ρ c w).trans (((dat0 (V1 m ρ) c).arrAt_in w hin _).trans (A_eq0 (V1 m ρ) c w))
  · exact W2_of_ne m ρ c r fun w e => hr ⟨w, e⟩
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev V6 : (c : Dev nD) → (b : Ref sig .tc) → Buf (Elt F) ((c : Thread nD τ).loc b) := fun c b => W6 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem W7_of (c : Dev nD) (r : Ref sig .tc) (h : r ∉ ([main_v10_0, main_v10_1, main_v10_2] : List (Ref sig .tc))) :
    W7 m ρ c (Proc.devRef .tc r) = W6 m ρ c (Proc.devRef .tc r) := by
  by_cases hr : ∃ w, Pipeline.arrRef spec1 w = r
  · obtain ⟨w, rfl⟩ := hr
    have hin : (cfg1.win w).isOut = false :=
      (by decide : ∀ w : Fin cfg1.W, Pipeline.arrRef spec1 w ∉ ([main_v10_0, main_v10_1, main_v10_2] : List (Ref sig .tc)) → (cfg1.win w).isOut = false) w h
    exact (W7_arr m ρ c w).trans (((dat1 (V6 m ρ) c).arrAt_in w hin _).trans (A_eq1 (V6 m ρ) c w))
  · exact W7_of_ne m ρ c r fun w e => hr ⟨w, e⟩
abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem W9_of (c : Dev nD) (r : Ref sig .tc) (h : r ∉ ([main_v16_0, main_v16_1] : List (Ref sig .tc))) :
    W9 m ρ c (Proc.devRef .tc r) = W8 m ρ c (Proc.devRef .tc r) := by
  by_cases hr : ∃ w, Pipeline.arrRef spec2 w = r
  · obtain ⟨w, rfl⟩ := hr
    have hin : (cfg2.win w).isOut = false :=
      (by decide : ∀ w : Fin cfg2.W, Pipeline.arrRef spec2 w ∉ ([main_v16_0, main_v16_1] : List (Ref sig .tc)) → (cfg2.win w).isOut = false) w h
    exact (W9_arr m ρ c w).trans (((dat2 (V8 m ρ) c).arrAt_in w hin _).trans (A_eq2 (V8 m ρ) c w))
  · exact W9_of_ne m ρ c r fun w e => hr ⟨w, e⟩
abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b
theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem W11_of (c : Dev nD) (r : Ref sig .tc) (h : r ∉ ([main_v47] : List (Ref sig .tc))) :
    W11 m ρ c (Proc.devRef .tc r) = W10 m ρ c (Proc.devRef .tc r) := by
  by_cases hr : ∃ w, Pipeline.arrRef spec3 w = r
  · obtain ⟨w, rfl⟩ := hr
    have hin : (cfg3.win w).isOut = false :=
      (by decide : ∀ w : Fin cfg3.W, Pipeline.arrRef spec3 w ∉ ([main_v47] : List (Ref sig .tc)) → (cfg3.win w).isOut = false) w h
    exact (W11_arr m ρ c w).trans (((dat3 (V10 m ρ) c).arrAt_in w hin _).trans (A_eq3 (V10 m ρ) c w))
  · exact W11_of_ne m ρ c r fun w e => hr ⟨w, e⟩
abbrev W12 : Dev nD → Valuation τ sig (Elt F) := fun c => StableHlo.after hostOps4 (W11 m ρ c)
abbrev V12 : (c : Dev nD) → (b : Ref sig .tc) → Buf (Elt F) ((c : Thread nD τ).loc b) := fun c b => W12 m ρ c b
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem W13_of (c : Dev nD) (r : Ref sig .tc) (h : r ∉ ([main_v50] : List (Ref sig .tc))) :
    W13 m ρ c (Proc.devRef .tc r) = W12 m ρ c (Proc.devRef .tc r) := by
  by_cases hr : ∃ w, Pipeline.arrRef spec4 w = r
  · obtain ⟨w, rfl⟩ := hr
    have hin : (cfg4.win w).isOut = false :=
      (by decide : ∀ w : Fin cfg4.W, Pipeline.arrRef spec4 w ∉ ([main_v50] : List (Ref sig .tc)) → (cfg4.win w).isOut = false) w h
    exact (W13_arr m ρ c w).trans (((dat4 (V12 m ρ) c).arrAt_in w hin _).trans (A_eq4 (V12 m ρ) c w))
  · exact W13_of_ne m ρ c r fun w e => hr ⟨w, e⟩
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]
/-- No item writes an argument, so at the last boundary its buffer holds what the launch memory held. -/
theorem W13_arg (c : Dev nD) (r : Ref sig .tc) (h : r ∈ argRefs) : W13 m ρ c (Proc.devRef .tc r) = m ((c : Thread nD τ).loc r) := by
  obtain ⟨h1, h2, h3, h4, h5, h6, h7, h8, h9, h10, h11, h12, h13⟩ := (by decide : ∀ r ∈ argRefs, r ∉ hostOps0_W ∧
    r ∉ ([main_v3] : List (Ref sig .tc)) ∧ r ∉ hostOps1_W ∧ r ∉ hostOps1_1_W ∧ r ∉ hostOps1_2_W ∧ r ∉ hostOps1_3_W ∧
    r ∉ ([main_v10_0, main_v10_1, main_v10_2] : List (Ref sig .tc)) ∧ r ∉ hostOps2_W ∧
    r ∉ ([main_v16_0, main_v16_1] : List (Ref sig .tc)) ∧ r ∉ hostOps3_W ∧ r ∉ ([main_v47] : List (Ref sig .tc)) ∧
    r ∉ hostOps4_W ∧ r ∉ ([main_v50] : List (Ref sig .tc))) r h
  exact (W13_of m ρ c r h13).trans <| (W12_of m ρ c r h12).trans <| (W11_of m ρ c r h11).trans <| (W10_of m ρ c r h10).trans <|
    (W9_of m ρ c r h9).trans <| (W8_of m ρ c r h8).trans <| (W7_of m ρ c r h7).trans <| (W6_of m ρ c r h6).trans <|
    (W5_of m ρ c r h5).trans <| (W4_of m ρ c r h4).trans <| (W3_of m ρ c r h3).trans <| (W2_of m ρ c r h2).trans <|
    W1_of m ρ c r h1
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V10 m ρ) c
  | ⟨4, _⟩ => fun c => dat4 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)
theorem owesAt_of_owes_nothing {cfg : Cfg sig Λ₀} {c : Dev nD} (dat : Dat τ (Elt F) Unit ℕ (UR sig nD τ) ℕ cfg c)
    (t : Fin (cfg.N + 1)) (h0 : dat.owed t = 0) (hrec : ∀ x, x ∈ dat.recorded t) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; exact fun x _ => Or.inl (hrec x)
  iexact HO
theorem owes_nothing_of_owesAt {cfg : Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hreg, Hdebt⟩, -, -⟩
    ihave Hparts := hsplit $$ Hbufs
    icases Hparts with ⟨Harr, Haside⟩
    imodintro
    isplitl [Harr]; · iexact Harr
    isplitr; · unfold Pipeline.prefHeld; rw [show (Finset.univ : Finset (Fin 0)) = ∅ from rfl, BI.bigSep_empty]; iempintro
    isplitl [Hdebt]
    · iapply (owesAt_of_owes_nothing (pdats m ρ 0 c) 0 rfl fun _ => trivial); iexact Hdebt
    isplitl [Hreg]; · iexact Hreg
    iexact Haside
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Harr, Hdebt, Hreg, Haside⟩
    imodintro
    isplitl [Harr Haside]
    · iapply hjoin; isplitl [Harr] <;> iassumption
    isplitl [Hreg]; · iexact Hreg
    iapply (owes_nothing_of_owesAt (pdats m ρ 0 c) (Fin.last _) rfl); iexact Hdebt
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hbufs, Hreg, Hdebt⟩, -, -⟩
    ihave Hparts := hsplit $$ Hbufs
    icases Hparts with ⟨Harr, Haside⟩
    imodintro
    isplitl [Harr]; · iexact Harr
    isplitr; · unfold Pipeline.prefHeld; rw [show (Finset.univ : Finset (Fin 0)) = ∅ from rfl, BI.bigSep_empty]; iempintro
    isplitl [Hdebt]
    · iapply (owesAt_of_owes_nothing (pdats m ρ 1 c) 0 rfl fun _ => trivial); iexact Hdebt
    isplitl [Hreg]; · iexact Hreg
    iexact Haside
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (fun w => (W7_arr m ρ c w).symm)
      (fun b hb => W7_of_ne m ρ c b fun w e => hb (Finset.mem_image.mpr ⟨w, Finset.mem_univ _, e⟩))
    rw [Pipeline.unscopedBufs_held] at hjoin
    iintro ⟨Harr, Hdebt, Hreg, Haside⟩
    imodintro
    isplitl [Harr Haside]
    · iapply hjoin; isplitl [Harr] <;> iassumption
    isplitl [Hreg]; · iexact Hreg
    iapply (owes_nothing_of_owesAt (pdats m ρ 1 c) (Fin.last _) rfl); iexact Hdebt
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hbufs, Hreg, Hdebt⟩, -, -⟩
    ihave Hparts := hsplit $$ Hbufs
    icases Hparts with ⟨Harr, Haside⟩
    imodintro
    isplitl [Harr]; · iexact Harr
    isplitr; · unfold Pipeline.prefHeld; rw [show (Finset.univ : Finset (Fin 0)) = ∅ from rfl, BI.bigSep_empty]; iempintro
    isplitl [Hdebt]
    · iapply (owesAt_of_owes_nothing (pdats m ρ 2 c) 0 rfl fun _ => trivial); iexact Hdebt
    isplitl [Hreg]; · iexact Hreg
    iexact Haside
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (fun w => (W9_arr m ρ c w).symm)
      (fun b hb => W9_of_ne m ρ c b fun w e => hb (Finset.mem_image.mpr ⟨w, Finset.mem_univ _, e⟩))
    rw [Pipeline.unscopedBufs_held] at hjoin
    iintro ⟨Harr, Hdebt, Hreg, Haside⟩
    imodintro
    isplitl [Harr Haside]
    · iapply hjoin; isplitl [Harr] <;> iassumption
    isplitl [Hreg]; · iexact Hreg
    iapply (owes_nothing_of_owesAt (pdats m ρ 2 c) (Fin.last _) rfl); iexact Hdebt
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hbufs, Hreg, Hdebt⟩, -, -⟩
    ihave Hparts := hsplit $$ Hbufs
    icases Hparts with ⟨Harr, Haside⟩
    imodintro
    isplitl [Harr]; · iexact Harr
    isplitr; · unfold Pipeline.prefHeld; rw [show (Finset.univ : Finset (Fin 0)) = ∅ from rfl, BI.bigSep_empty]; iempintro
    isplitl [Hdebt]
    · iapply (owesAt_of_owes_nothing (pdats m ρ 3 c) 0 rfl fun _ => trivial); iexact Hdebt
    isplitl [Hreg]; · iexact Hreg
    iexact Haside
  hin c := by
    rw [show (pdats m ρ 3 c).Φ 0 = Pipeline.ΦA spec3 c from rfl]; unfold Pipeline.ΦA
    iintro ⟨Hreg, -, Hscoped⟩
    isplitl [Hscoped]; · iexact Hscoped
    iexact Hreg
  hout c := by
    rw [Pipeline.ownSems0_none, show (pdats m ρ 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (fun w => (W11_arr m ρ c w).symm)
      (fun b hb => W11_of_ne m ρ c b fun w e => hb (Finset.mem_image.mpr ⟨w, Finset.mem_univ _, e⟩))
    rw [Pipeline.unscopedBufs_held] at hjoin
    iintro ⟨Harr, Hdebt, Hreg, Haside⟩
    imodintro
    isplitl [Harr Haside]
    · iapply hjoin; isplitl [Harr] <;> iassumption
    isplitl [Hreg]; · iexact Hreg
    iapply (owes_nothing_of_owesAt (pdats m ρ 3 c) (Fin.last _) rfl); iexact Hdebt
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hbufs, Hreg, Hdebt⟩, -, -⟩
    ihave Hparts := hsplit $$ Hbufs
    icases Hparts with ⟨Harr, Haside⟩
    imodintro
    isplitl [Harr]; · iexact Harr
    isplitr; · unfold Pipeline.prefHeld; rw [show (Finset.univ : Finset (Fin 0)) = ∅ from rfl, BI.bigSep_empty]; iempintro
    isplitl [Hdebt]
    · iapply (owesAt_of_owes_nothing (pdats m ρ 4 c) 0 rfl fun _ => trivial); iexact Hdebt
    isplitl [Hreg]; · iexact Hreg
    iexact Haside
  hin c := by
    rw [show (pdats m ρ 4 c).Φ 0 = Pipeline.ΦA spec4 c from rfl]; unfold Pipeline.ΦA
    iintro ⟨Hreg, -, Hscoped⟩
    isplitl [Hscoped]; · iexact Hscoped
    iexact Hreg
  hout c := by
    rw [Pipeline.ownSems0_none, show (pdats m ρ 4 c).Φ (Fin.last _) = Pipeline.ΦA spec4 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (fun w => (W13_arr m ρ c w).symm)
      (fun b hb => W13_of_ne m ρ c b fun w e => hb (Finset.mem_image.mpr ⟨w, Finset.mem_univ _, e⟩))
    rw [Pipeline.unscopedBufs_held] at hjoin
    iintro ⟨Harr, Hdebt, Hreg, Haside⟩
    imodintro
    isplitl [Harr Haside Hreg]
    · isplitl [Harr Haside]
      · iapply hjoin; isplitl [Harr] <;> iassumption
      iexact Hreg
    iapply (owes_nothing_of_owesAt (pdats m ρ 4 c) (Fin.last _) rfl); iexact Hdebt
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .region (reg4 m ρ) ]
theorem main_run (c : Dev nD) : main (F := F) c = Pipeline.Seg.run (segs m ρ) := (main_chain c).trans (by chain_rfl)
set_option backward.isDefEq.respectTransparency.types false in
/-- Every weakly fair execution ends, each buffer holding the last boundary's contents. -/
theorem run : θ_run defs (onTc (τ := τ) (main (F := F))) ⟨m, fun _ => 0, ρ⟩
    (fun r => ∀ c : Dev nD, ∀ b ∈ Pipeline.ucRefs τ sig, r.2.mem ((c : Thread nD τ).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W13 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W13 m ρ c) s')
      isplitl [Hbufs] <;> iassumption)
    (hQ := fun s h c => h c)
end Cert.KernelIdeal.Hand
end
-- ==== Proof.KI.HostB.lean ====
import proofs.«413210_j12120397710134_3_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws
noncomputable section
namespace Cert.KernelIdeal.HostRead
open Cert.KernelIdeal Cert.KernelIdeal.Gen Idealize.ShloMosaic Idealize.ShloMosaic.ValueIdx
open scoped BigOperators
theorem rowSums_apply {n : ℕ} (r : ℕ) (A : (⟨3, ![n, 8, 128]⟩ : Shape).Idx → EReal)
    (hs : (⟨3, ![n, 8, 128]⟩ : Shape).Slices ![0, r, 0] ⟨3, ![n, 1, 128]⟩)
    (hc : (⟨3, ![n, 1, 128]⟩ : Shape).ShapeCasts ⟨2, ![n, 128]⟩)
    (hr' : (⟨2, ![n, 128]⟩ : Shape).ReducesTo [0] ⟨1, ![128]⟩)
    (hr : (⟨2, ![n, 128]⟩ : Shape).Reduces [0] ⟨1, ![128]⟩)
    (hu : 0 < (⟨0, ![]⟩ : Shape).numel) (k : Fin 8) (hk : k.val = r) (j : Fin 128) :
    Host.reduceAdd (F := Ideal) (φ := .f32)
        (shapeCast ⟨2, ![n, 128]⟩ (extractStridedSlice ⟨3, ![n, 1, 128]⟩ ![0, r, 0] A hs) hc)
        (constant (F := Ideal) ⟨0, ![]⟩ .f32 0x00000000#32) hr' hu (ix1 j) = ∑ b : Fin n, A (ix3 b k j) := by
  rw [hostReduceAdd_apply, Ideal.hostReduceAdd_single hr' hr, constant_apply, Ideal.ofBits_zero_f32, zero_add]
  refine Finset.sum_congr rfl fun b _ => ?_
  have hl : hr.lift (ix1 j) b = ix2 b j := by
    funext c
    match c with
    | ⟨0, _⟩ => rfl
    | ⟨1, _⟩ => rfl
  rw [hl]
  refine (shapeCast_apply _ hc (ix2 b j) (ix3 b (0 : Fin 1) j) ?_).trans ?_
  · rw [Shape.rowMajor_val_three, Shape.rowMajor_val_two]
    show (b.val * 1 + 0) * 128 + j.val = b.val * 128 + j.val
    omega
  · exact slice3_axis1_apply r A hs b 0 j k (by rw [hk]; rfl)
theorem rowOver_apply (s : (⟨1, ![128]⟩ : Shape).Idx → EReal) (c : BitVec 32)
    (hb : (⟨0, ![]⟩ : Shape).BroadcastsInDim ⟨1, ![128]⟩ (![] : Fin 0 → Fin 1))
    (hc : (⟨1, ![128]⟩ : Shape).ShapeCasts ⟨2, ![1, 128]⟩) (j : Fin 128) :
    shapeCast ⟨2, ![1, 128]⟩ (Host.divf (F := Ideal) (φ := .f32) s
        (broadcastInDim ⟨1, ![128]⟩ ![] hb (constant (F := Ideal) ⟨0, ![]⟩ .f32 c))) hc (ix2 0 j)
      = Ideal.div (s (ix1 j)) (Ideal.ofBits .f32 c) := by
  rw [shapeCast_a_1a_apply, hostDivf_apply, broadcastInDim_scalar_apply, constant_apply]
variable (X : Valuation τ sig (Elt Ideal))
theorem mean_e (j : Fin 128) :
    (StableHlo.after hostOps3 X (Proc.devRef .tc main_v25) : S1x128.Idx → EReal) (ix2 0 j)
      = Ideal.div (∑ b : Fin 125, (X (Proc.devRef .tc main_v10_2) : S125x8x128.Idx → EReal) (ix3 b 0 j))
          (Ideal.ofBits .f32 0x48F42400#32) := by
  after_results
  exact (rowOver_apply _ _ _ _ j).trans (congrArg (Ideal.div · _) (rowSums_apply 0 _ _ _ _ (by decide) _ 0 rfl j))
theorem var_e (j : Fin 128) :
    (StableHlo.after hostOps3 X (Proc.devRef .tc main_v30) : S1x128.Idx → EReal) (ix2 0 j)
      = Ideal.div (∑ b : Fin 125, (X (Proc.devRef .tc main_v10_2) : S125x8x128.Idx → EReal) (ix3 b 1 j))
            (Ideal.ofBits .f32 0x48F42400#32)
        - Ideal.div (∑ b : Fin 125, (X (Proc.devRef .tc main_v10_2) : S125x8x128.Idx → EReal) (ix3 b 0 j))
            (Ideal.ofBits .f32 0x48F42400#32)
          * Ideal.div (∑ b : Fin 125, (X (Proc.devRef .tc main_v10_2) : S125x8x128.Idx → EReal) (ix3 b 0 j))
            (Ideal.ofBits .f32 0x48F42400#32) := by
  after_results_simp
  exact congrArg₂ (· - ·) ((rowOver_apply _ _ _ _ j).trans (congrArg (Ideal.div · _) (rowSums_apply 1 _ _ _ _ (by decide) _ 1 rfl j)))
    (congrArg (fun t => t * t) ((rowOver_apply _ _ _ _ j).trans (congrArg (Ideal.div · _) (rowSums_apply 0 _ _ _ _ (by decide) _ 0 rfl j))))
theorem mean_h (j : Fin 128) :
    (StableHlo.after hostOps3 X (Proc.devRef .tc main_v39) : S1x128.Idx → EReal) (ix2 0 j)
      = Ideal.div (∑ b : Fin 10, (X (Proc.devRef .tc main_v16_1) : S10x8x128.Idx → EReal) (ix3 b 0 j))
          (Ideal.ofBits .f32 0x47435000#32) := by
  after_results
  exact (rowOver_apply _ _ _ _ j).trans (congrArg (Ideal.div · _) (rowSums_apply 0 _ _ _ _ (by decide) _ 0 rfl j))
theorem var_h (j : Fin 128) :
    (StableHlo.after hostOps3 X (Proc.devRef .tc main_v44) : S1x128.Idx → EReal) (ix2 0 j)
      = Ideal.div (∑ b : Fin 10, (X (Proc.devRef .tc main_v16_1) : S10x8x128.Idx → EReal) (ix3 b 1 j))
            (Ideal.ofBits .f32 0x47435000#32)
        - Ideal.div (∑ b : Fin 10, (X (Proc.devRef .tc main_v16_1) : S10x8x128.Idx → EReal) (ix3 b 0 j))
            (Ideal.ofBits .f32 0x47435000#32)
          * Ideal.div (∑ b : Fin 10, (X (Proc.devRef .tc main_v16_1) : S10x8x128.Idx → EReal) (ix3 b 0 j))
            (Ideal.ofBits .f32 0x47435000#32) := by
  after_results_simp
  exact congrArg₂ (· - ·) ((rowOver_apply _ _ _ _ j).trans (congrArg (Ideal.div · _) (rowSums_apply 1 _ _ _ _ (by decide) _ 1 rfl j)))
    (congrArg (fun t => t * t) ((rowOver_apply _ _ _ _ j).trans (congrArg (Ideal.div · _) (rowSums_apply 0 _ _ _ _ (by decide) _ 0 rfl j))))
theorem reshape_v45 (j : Fin 128) :
    (StableHlo.after hostOps3 X (Proc.devRef .tc main_v45) : S1x128.Idx → EReal) (ix2 0 j)
      = (X (Proc.devRef .tc main_arg14) : S128.Idx → EReal) (ix1 j) := by
  after_results
  exact shapeCast_a_1a_apply _ _ 0 j
theorem reshape_v46 (j : Fin 128) :
    (StableHlo.after hostOps3 X (Proc.devRef .tc main_v46) : S1x128.Idx → EReal) (ix2 0 j)
      = (X (Proc.devRef .tc main_arg15) : S128.Idx → EReal) (ix1 j) := by
  after_results
  exact shapeCast_a_1a_apply _ _ 0 j
end Cert.KernelIdeal.HostRead
end
-- ==== Proof.Spec.lean ====
import Idealize.ShloMosaic.PureOps.Ideal
import Idealize.ShloMosaic.Lib.ValueIdx
import Mathlib.Algebra.BigOperators.Group.Finset.Basic
noncomputable section
namespace Cert.Spec
open Idealize.ShloMosaic Idealize.ShloMosaic.ValueIdx
structure Args where
  h : Fin 50000 → Fin 128 → EReal
  e : Fin 500000 → Fin 128 → EReal
  (rs rd : Fin 500000 → Fin 50000)
  Aw : Fin 128 → Fin 128 → EReal
  Ab : Fin 128 → EReal
  Bw : Fin 128 → Fin 128 → EReal
  Bb : Fin 128 → EReal
  Cw : Fin 128 → Fin 128 → EReal
  Cb : Fin 128 → EReal
  Dw : Fin 128 → Fin 128 → EReal
  Db : Fin 128 → EReal
  Ew : Fin 128 → Fin 128 → EReal
  Eb : Fin 128 → EReal
  (gh bh ge be : Fin 128 → EReal)
  (eps6 eps5 cntN cntE : EReal)
def lin {n : ℕ} (x : Fin n → Fin 128 → EReal) (W : Fin 128 → Fin 128 → EReal) (b : Fin 128 → EReal)
    (i : Fin n) (j : Fin 128) : EReal :=
  (∑ k : Fin 128, x i k * W k j) + b j
variable (a : Args)
def Ah : Fin 50000 → Fin 128 → EReal := lin a.h a.Aw a.Ab
def Bh : Fin 50000 → Fin 128 → EReal := lin a.h a.Bw a.Bb
def Dh : Fin 50000 → Fin 128 → EReal := lin a.h a.Dw a.Db
def Eh : Fin 50000 → Fin 128 → EReal := lin a.h a.Ew a.Eb
def Ce : Fin 500000 → Fin 128 → EReal := lin a.e a.Cw a.Cb
def eNew (r : Fin 500000) (j : Fin 128) : EReal := (Dh a (a.rs r) j + Eh a (a.rd r) j) + Ce a r j
def sig (r : Fin 500000) (j : Fin 128) : EReal := Ideal.logistic (eNew a r j)
def sumSigH (n : Fin 50000) (j : Fin 128) : EReal :=
  ∑ r : Fin 500000, if a.rd r = n then Bh a (a.rs r) j * sig a r j else 0
def sumSig (n : Fin 50000) (j : Fin 128) : EReal := ∑ r : Fin 500000, if a.rd r = n then sig a r j else 0
def hNew (n : Fin 50000) (j : Fin 128) : EReal := Ah a n j + Ideal.div (sumSigH a n j) (sumSig a n j + a.eps6)
def colMean {n : ℕ} (x : Fin n → Fin 128 → EReal) (cnt : EReal) (j : Fin 128) : EReal :=
  Ideal.div (∑ i : Fin n, x i j) cnt
def colVar {n : ℕ} (x : Fin n → Fin 128 → EReal) (cnt : EReal) (j : Fin 128) : EReal :=
  Ideal.div (∑ i : Fin n, (x i j - colMean x cnt j) * (x i j - colMean x cnt j)) cnt
def colVarK {n : ℕ} (x : Fin n → Fin 128 → EReal) (cnt : EReal) (j : Fin 128) : EReal :=
  Ideal.div (∑ i : Fin n, x i j * x i j) cnt - colMean x cnt j * colMean x cnt j
def bnRelu {n : ℕ} (x xin : Fin n → Fin 128 → EReal) (cnt eps : EReal) (g b : Fin 128 → EReal)
    (i : Fin n) (j : Fin 128) : EReal :=
  xin i j + max ((x i j - colMean x cnt j) * Ideal.rsqrt (colVar x cnt j + eps) * g j + b j) 0
def bnPoint (x xin mean var eps g b : EReal) : EReal :=
  xin + max ((x - mean) * Ideal.rsqrt (max var 0 + eps) * g + b) 0
def bnReluK {n : ℕ} (x xin : Fin n → Fin 128 → EReal) (cnt eps : EReal) (g b : Fin 128 → EReal)
    (i : Fin n) (j : Fin 128) : EReal :=
  bnPoint (x i j) (xin i j) (colMean x cnt j) (colVarK x cnt j) eps (g j) (b j)
def outH : Fin 50000 → Fin 128 → EReal := bnRelu (hNew a) a.h a.cntN a.eps5 a.gh a.bh
def outE : Fin 500000 → Fin 128 → EReal := bnRelu (eNew a) a.e a.cntE a.eps5 a.ge a.be
abbrev SN : Shape := ⟨2, ![50000, 128]⟩
abbrev SE : Shape := ⟨2, ![500000, 128]⟩
abbrev SI : Shape := ⟨1, ![500000]⟩
abbrev SW : Shape := ⟨2, ![128, 128]⟩
abbrev SB : Shape := ⟨1, ![128]⟩
def arr2 {p q : ℕ} (f : Fin p → Fin q → EReal) : (⟨2, ![p, q]⟩ : Shape).Idx → EReal :=
  fun i => f ⟨(i 0).val, idx2_lt0 i⟩ ⟨(i 1).val, idx2_lt1 i⟩
theorem arr2_ix2 {p q : ℕ} (f : Fin p → Fin q → EReal) (i : Fin p) (j : Fin q) : arr2 f (ix2 i j) = f i j := rfl
def rowOf (idx : SI.Idx → BitVec 32) (r : Fin 500000) : Fin 50000 :=
  ⟨min (idx (ix1 r)).toInt.toNat 49999, by omega⟩
theorem rowOf_val_of_range (idx : SI.Idx → BitVec 32) (r : Fin 500000)
    (h0 : 0 ≤ (idx (ix1 r)).toInt) (h1 : (idx (ix1 r)).toInt < 50000) :
    ((rowOf idx r).val : ℤ) = (idx (ix1 r)).toInt := by
  unfold rowOf
  show ((min (idx (ix1 r)).toInt.toNat 49999 : ℕ) : ℤ) = _
  omega
def mkArgs (h : SN.Idx → EReal) (e : SE.Idx → EReal) (src dst : SI.Idx → BitVec 32)
    (Aw : SW.Idx → EReal) (Ab : SB.Idx → EReal) (Bw : SW.Idx → EReal) (Bb : SB.Idx → EReal)
    (Cw : SW.Idx → EReal) (Cb : SB.Idx → EReal) (Dw : SW.Idx → EReal) (Db : SB.Idx → EReal)
    (Ew : SW.Idx → EReal) (Eb : SB.Idx → EReal) (gh bh ge be : SB.Idx → EReal) : Args where
  h := fun i k => h (ix2 i k)
  e := fun i k => e (ix2 i k)
  rs := rowOf src
  rd := rowOf dst
  Aw := fun k j => Aw (ix2 k j)
  Ab := fun j => Ab (ix1 j)
  Bw := fun k j => Bw (ix2 k j)
  Bb := fun j => Bb (ix1 j)
  Cw := fun k j => Cw (ix2 k j)
  Cb := fun j => Cb (ix1 j)
  Dw := fun k j => Dw (ix2 k j)
  Db := fun j => Db (ix1 j)
  Ew := fun k j => Ew (ix2 k j)
  Eb := fun j => Eb (ix1 j)
  gh := fun j => gh (ix1 j)
  bh := fun j => bh (ix1 j)
  ge := fun j => ge (ix1 j)
  be := fun j => be (ix1 j)
  eps6 := Ideal.ofBits .f32 0x358637BD#32
  eps5 := Ideal.ofBits .f32 0x3727C5AC#32
  cntN := Ideal.ofBits .f32 0x47435000#32
  cntE := Ideal.ofBits .f32 0x48F42400#32
end Cert.Spec
end
-- ==== Proof.KI.Final3.lean ====
import proofs.«413210_j12120397710134_3_alg».proof.Proof.KI.Reg3
import proofs.«413210_j12120397710134_3_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.HandValue
open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
variable (V : (c : Dev nD) → (b : Ref sig .tc) → Buf (Elt Ideal) ((c : Thread nD τ).loc b))
namespace BnRead
theorem zero_offsets : (![0, 0] : Fin 2 → Nat) = fun _ => 0 := funext fun a => by fin_cases a <;> rfl
theorem rsqrt_at {s : Shape} (v : FVec Ideal s .f32) (i : s.Idx) : (rsqrt v : FVec Ideal s .f32) i = Ideal.rsqrt (v i) := rfl
abbrev col {n : ℕ} (i : (⟨2, ![n, 128]⟩ : Shape).Idx) : Fin 128 := ⟨(i 1).val, idx2_lt1 i⟩
/-- Batch normalisation with relu and residual at an index; the four parameter rows are read at the index's column. -/
abbrev arr {n : ℕ} (A0 A1 : (⟨2, ![n, 128]⟩ : Shape).Idx → EReal) (A2 A3 A4 A5 : S1x128.Idx → EReal) :
    (⟨2, ![n, 128]⟩ : Shape).Idx → EReal := fun i =>
  Cert.Spec.bnPoint (A0 i) (A1 i) (A2 (ix2 0 (col i))) (A3 (ix2 0 (col i))) (Ideal.ofBits .f32 0x3727C5AC#32)
    (A4 (ix2 0 (col i))) (A5 (ix2 0 (col i)))
theorem pay_at (x xin : Vec Ideal S5000x128 .f32) (var mean gam bet : Vec Ideal S1x128 .f32) (j : S5000x128.Idx) :
    k3_pay1 x var mean gam bet xin j = arr (n := 5000) x xin mean var gam bet j := by
  obtain ⟨p, q, rfl⟩ : ∃ (p : Fin 5000) (q : Fin 128), j = ix2 p q := ⟨j 0, j 1, eq_ix2 j⟩
  show _ = Cert.Spec.bnPoint (x (ix2 p q)) (xin (ix2 p q)) (mean (ix2 0 q)) (var (ix2 0 q)) _ (gam (ix2 0 q)) (bet (ix2 0 q))
  unfold k3_pay1 Cert.Spec.bnPoint
  simp only [shapeCast_self]
  simp only [addf_apply, maximumf_apply, mulf_apply, subf_apply, broadcast_apply, broadcastTo_1b_ab_apply, rsqrt_at,
    Ideal.ofBits_def, Ideal.ofBits_zero_f32]
/-- Blocks that read two arrays at `e j`, rows that are the parameter rows, and an `e` that keeps the column. -/
theorem pay_eq {n : ℕ} {A0 A1 : (⟨2, ![n, 128]⟩ : Shape).Idx → EReal} {A2 A3 A4 A5 : S1x128.Idx → EReal}
    {b0 b1 : Vec Ideal S5000x128 .f32} {r2 r3 r4 r5 : Vec Ideal S1x128 .f32} {e : S5000x128.Idx → (⟨2, ![n, 128]⟩ : Shape).Idx}
    (h0 : ∀ j, b0 j = A0 (e j)) (h1 : ∀ j, b1 j = A1 (e j)) (h2 : r2 = A2) (h3 : r3 = A3) (h4 : r4 = A4) (h5 : r5 = A5)
    (hc : ∀ j, (e j 1).val = (j 1).val) (j : S5000x128.Idx) :
    k3_pay1 b0 r3 r2 r4 r5 b1 j = arr A0 A1 A2 A3 A4 A5 (e j) := by
  subst h2 h3 h4 h5
  rw [pay_at]
  unfold arr
  rw [h0, h1, show col (e j) = col (n := 5000) j from Fin.ext (hc j)]
end BnRead
namespace Reg3
open BnRead
theorem index_maps : ∀ t : Fin cfg3.N,
    win3_6.index t (0 : Fin 2) = t.val ∧ win3_6.index t (1 : Fin 2) = 0
    ∧ ∀ a : Fin 2, win3_0.index t a = win3_6.index t a ∧ win3_1.index t a = win3_6.index t a
      ∧ win3_2.index t a = 0 ∧ win3_3.index t a = 0 ∧ win3_4.index t a = 0 ∧ win3_5.index t a = 0 :=
  (by decide +kernel : ∀ t : Fin grid3.N, _)
theorem rows_at (c : Dev nD) (t : Fin cfg3.N) :
    (iblk3 V c 2 t : S1x128.Idx → EReal) = V c (Pipeline.arrRef spec3 2) ∧ (iblk3 V c 3 t : S1x128.Idx → EReal) = V c (Pipeline.arrRef spec3 3)
    ∧ (iblk3 V c 4 t : S1x128.Idx → EReal) = V c (Pipeline.arrRef spec3 4) ∧ (iblk3 V c 5 t : S1x128.Idx → EReal) = V c (Pipeline.arrRef spec3 5) := by
  obtain ⟨-, -, z⟩ := index_maps t
  refine ⟨funext fun y => ?_, funext fun y => ?_, funext fun y => ?_, funext fun y => ?_⟩
  · exact congrArg (V c (Pipeline.arrRef spec3 2) : S1x128.Idx → EReal) (funext fun a => Fin.ext (win3_2.rect_emb_val_of_index_zero t a (z a).2.2.1 y))
  · exact congrArg (V c (Pipeline.arrRef spec3 3) : S1x128.Idx → EReal) (funext fun a => Fin.ext (win3_3.rect_emb_val_of_index_zero t a (z a).2.2.2.1 y))
  · exact congrArg (V c (Pipeline.arrRef spec3 4) : S1x128.Idx → EReal) (funext fun a => Fin.ext (win3_4.rect_emb_val_of_index_zero t a (z a).2.2.2.2.1 y))
  · exact congrArg (V c (Pipeline.arrRef spec3 5) : S1x128.Idx → EReal) (funext fun a => Fin.ext (win3_5.rect_emb_val_of_index_zero t a (z a).2.2.2.2.2 y))
theorem blocks_at (c : Dev nD) (t : Fin cfg3.N) (j : S5000x128.Idx) :
    iblk3 V c 0 t j = (V c (Pipeline.arrRef spec3 0) : S50000x128.Idx → EReal) (((cfg3.win 6).blk t).view.emb j)
    ∧ iblk3 V c 1 t j = (V c (Pipeline.arrRef spec3 1) : S50000x128.Idx → EReal) (((cfg3.win 6).blk t).view.emb j)
    ∧ (((cfg3.win 6).blk t).view.emb j 1).val = (j 1).val := by
  obtain ⟨-, e61, z⟩ := index_maps t
  refine ⟨?_, ?_, win3_6.rect_emb_val_of_index_zero t (1 : Fin 2) e61 j⟩
  · exact congrArg (V c (Pipeline.arrRef spec3 0) : S50000x128.Idx → EReal) (funext fun a => Fin.ext ((win3_0.rect_emb_val t j a).trans
      ((congrArg (· * win3_6.size a + (j a).val) (z a).1).trans (win3_6.rect_emb_val t j a).symm)))
  · exact congrArg (V c (Pipeline.arrRef spec3 1) : S50000x128.Idx → EReal) (funext fun a => Fin.ext ((win3_1.rect_emb_val t j a).trans
      ((congrArg (· * win3_6.size a + (j a).val) (z a).2.1).trans (win3_6.rect_emb_val t j a).symm)))
abbrev result (c : Dev nD) : S50000x128.Idx → EReal :=
  arr (n := 50000) (V c (Pipeline.arrRef spec3 0)) (V c (Pipeline.arrRef spec3 1)) (V c (Pipeline.arrRef spec3 2)) (V c (Pipeline.arrRef spec3 3))
    (V c (Pipeline.arrRef spec3 4)) (V c (Pipeline.arrRef spec3 5))
theorem flushed_eq (c : Dev nD) (t : Fin cfg3.N) :
    (dat3 (F := Ideal) V c).flushed 6 t = ((cfg3.win 6).blk t).view.read (Elt Ideal) (result V c) := by
  show (cfg3.win 6).cut (grid3.coords t) ((dat3 (F := Ideal) V c).after 6 t) = _
  rw [after3_6]
  unfold out3_6
  rw [View.canon_unit_zero zero_offsets]
  simp only [View.ld_unit_zero (S := S5000x128) zero_offsets, View.ld_unit_zero (S := S1x128) zero_offsets]
  obtain ⟨r2, r3, r4, r5⟩ := rows_at V c t
  funext j
  exact (pay_eq (fun j => (blocks_at V c t j).1) (fun j => (blocks_at V c t j).2.1) r2 r3 r4 r5
    (fun j => (blocks_at V c t j).2.2) j).trans rfl
theorem result_covered (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e60, e61, -⟩ := index_maps t
  refine ⟨t, flush3_6 t, ?_⟩
  show i ∈ ((View.whole main_v47).slice (win3_6.rect t)).set
  rw [View.set_slice_whole, Rect.mem_set_unit]
  intro (a : Fin 2)
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega
end Reg3
theorem final3 (c : Dev nD) (i : Fin 50000) (j : Fin 128) :
    ((dat3 (F := Ideal) V c).arrAt 6 cfg3.N : S50000x128.Idx → EReal) (ix2 i j)
      = Cert.Spec.bnPoint ((V c (Pipeline.arrRef spec3 0) : S50000x128.Idx → EReal) (ix2 i j)) ((V c (Pipeline.arrRef spec3 1) : S50000x128.Idx → EReal) (ix2 i j))
          ((V c (Pipeline.arrRef spec3 2) : S1x128.Idx → EReal) (ix2 0 j)) ((V c (Pipeline.arrRef spec3 3) : S1x128.Idx → EReal) (ix2 0 j))
          (Ideal.ofBits .f32 0x3727C5AC#32)
          ((V c (Pipeline.arrRef spec3 4) : S1x128.Idx → EReal) (ix2 0 j)) ((V c (Pipeline.arrRef spec3 5) : S1x128.Idx → EReal) (ix2 0 j)) :=
  congrFun ((dat3 (F := Ideal) V c).arrAt_eq_of_cover 6 (Reg3.result V c) (fun t _ => Reg3.flushed_eq V c t) Reg3.result_covered) (ix2 i j)
end Cert.KernelIdeal.HandValue
-- ==== Proof.KI.Final4.lean ====
import proofs.«413210_j12120397710134_3_alg».proof.Proof.KI.Reg4
import proofs.«413210_j12120397710134_3_alg».proof.Proof.KI.Final3
import proofs.«413210_j12120397710134_3_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.HandValue
open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
variable (V : (c : Dev nD) → (b : Ref sig .tc) → Buf (Elt Ideal) ((c : Thread nD τ).loc b))
namespace Reg4
open BnRead
theorem idx_facts4 : ∀ t : Fin cfg4.N,
    win4_6.index t (0 : Fin 2) = t.val ∧ win4_6.index t (1 : Fin 2) = 0
    ∧ ∀ a : Fin 2, win4_0.index t a = win4_6.index t a ∧ win4_1.index t a = win4_6.index t a
      ∧ win4_2.index t a = 0 ∧ win4_3.index t a = 0 ∧ win4_4.index t a = 0 ∧ win4_5.index t a = 0 :=
  (by decide +kernel : ∀ t : Fin grid4.N, _)
theorem rows_at (c : Dev nD) (t : Fin cfg4.N) :
    (iblk4 V c 2 t : S1x128.Idx → EReal) = V c (Pipeline.arrRef spec4 2) ∧ (iblk4 V c 3 t : S1x128.Idx → EReal) = V c (Pipeline.arrRef spec4 3)
    ∧ (iblk4 V c 4 t : S1x128.Idx → EReal) = V c (Pipeline.arrRef spec4 4) ∧ (iblk4 V c 5 t : S1x128.Idx → EReal) = V c (Pipeline.arrRef spec4 5) := by
  obtain ⟨-, -, z⟩ := idx_facts4 t
  refine ⟨funext fun y => ?_, funext fun y => ?_, funext fun y => ?_, funext fun y => ?_⟩
  · exact congrArg (V c (Pipeline.arrRef spec4 2) : S1x128.Idx → EReal) (funext fun a => Fin.ext (win4_2.rect_emb_val_of_index_zero t a (z a).2.2.1 y))
  · exact congrArg (V c (Pipeline.arrRef spec4 3) : S1x128.Idx → EReal) (funext fun a => Fin.ext (win4_3.rect_emb_val_of_index_zero t a (z a).2.2.2.1 y))
  · exact congrArg (V c (Pipeline.arrRef spec4 4) : S1x128.Idx → EReal) (funext fun a => Fin.ext (win4_4.rect_emb_val_of_index_zero t a (z a).2.2.2.2.1 y))
  · exact congrArg (V c (Pipeline.arrRef spec4 5) : S1x128.Idx → EReal) (funext fun a => Fin.ext (win4_5.rect_emb_val_of_index_zero t a (z a).2.2.2.2.2 y))
theorem blocks_at (c : Dev nD) (t : Fin cfg4.N) (j : S5000x128.Idx) :
    iblk4 V c 0 t j = (V c (Pipeline.arrRef spec4 0) : S500000x128.Idx → EReal) (((cfg4.win 6).blk t).view.emb j)
    ∧ iblk4 V c 1 t j = (V c (Pipeline.arrRef spec4 1) : S500000x128.Idx → EReal) (((cfg4.win 6).blk t).view.emb j)
    ∧ (((cfg4.win 6).blk t).view.emb j 1).val = (j 1).val := by
  obtain ⟨-, e61, z⟩ := idx_facts4 t
  refine ⟨?_, ?_, win4_6.rect_emb_val_of_index_zero t (1 : Fin 2) e61 j⟩
  · exact congrArg (V c (Pipeline.arrRef spec4 0) : S500000x128.Idx → EReal) (funext fun a => Fin.ext ((win4_0.rect_emb_val t j a).trans
      ((congrArg (· * win4_6.size a + (j a).val) (z a).1).trans (win4_6.rect_emb_val t j a).symm)))
  · exact congrArg (V c (Pipeline.arrRef spec4 1) : S500000x128.Idx → EReal) (funext fun a => Fin.ext ((win4_1.rect_emb_val t j a).trans
      ((congrArg (· * win4_6.size a + (j a).val) (z a).2.1).trans (win4_6.rect_emb_val t j a).symm)))
abbrev result (c : Dev nD) : S500000x128.Idx → EReal :=
  arr (n := 500000) (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5))
theorem flushed_eq (c : Dev nD) (t : Fin cfg4.N) :
    (dat4 (F := Ideal) V c).flushed 6 t = ((cfg4.win 6).blk t).view.read (Elt Ideal) (result V c) := by
  show (cfg4.win 6).cut (grid4.coords t) ((dat4 (F := Ideal) V c).after 6 t) = _
  rw [after4_6]
  unfold out4_6
  rw [View.canon_unit_zero zero_offsets]
  simp only [View.ld_unit_zero (S := S5000x128) zero_offsets, View.ld_unit_zero (S := S1x128) zero_offsets]
  obtain ⟨r2, r3, r4, r5⟩ := rows_at V c t
  funext j
  exact (pay_eq (fun j => (blocks_at V c t j).1) (fun j => (blocks_at V c t j).2.1) r2 r3 r4 r5
    (fun j => (blocks_at V c t j).2.2) j).trans rfl
theorem cover4 (i : S500000x128.Idx) :
    ∃ t : Fin cfg4.N, (cfg4.win 6).flush t = true ∧ i ∈ ((cfg4.win 6).blk t).view.set := by
  have hi0 : (i 0).val < 500000 := (i 0).isLt
  have hi1 : (i 1).val < 128 := (i 1).isLt
  have hN : cfg4.N = 100 := N_4
  obtain ⟨t, ht⟩ : ∃ t : Fin cfg4.N, t.val = (i 0).val / 5000 := ⟨⟨(i 0).val / 5000, by rw [hN]; omega⟩, rfl⟩
  obtain ⟨e60, e61, -⟩ := idx_facts4 t
  refine ⟨t, flush4_6 t, ?_⟩
  show i ∈ ((View.whole main_v50).slice (win4_6.rect t)).set
  rw [View.set_slice_whole, Rect.mem_set_unit]
  intro (a : Fin 2)
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega
end Reg4
theorem final4 (c : Dev nD) (i : Fin 500000) (j : Fin 128) :
    ((dat4 (F := Ideal) V c).arrAt 6 cfg4.N : S500000x128.Idx → EReal) (ix2 i j)
      = Cert.Spec.bnPoint ((V c (Pipeline.arrRef spec4 0) : S500000x128.Idx → EReal) (ix2 i j)) ((V c (Pipeline.arrRef spec4 1) : S500000x128.Idx → EReal) (ix2 i j))
          ((V c (Pipeline.arrRef spec4 2) : S1x128.Idx → EReal) (ix2 0 j)) ((V c (Pipeline.arrRef spec4 3) : S1x128.Idx → EReal) (ix2 0 j))
          (Ideal.ofBits .f32 0x3727C5AC#32)
          ((V c (Pipeline.arrRef spec4 4) : S1x128.Idx → EReal) (ix2 0 j)) ((V c (Pipeline.arrRef spec4 5) : S1x128.Idx → EReal) (ix2 0 j)) :=
  congrFun ((dat4 (F := Ideal) V c).arrAt_eq_of_cover 6 (Reg4.result V c) (fun t _ => Reg4.flushed_eq V c t) Reg4.cover4) (ix2 i j)
end Cert.KernelIdeal.HandValue
-- ==== Proof.KI.Final2.lean ====
import proofs.«413210_j12120397710134_3_alg».proof.Proof.KI.Reg2
import proofs.«413210_j12120397710134_3_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.HandValue
open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators
variable (V : (c : Dev nD) → (b : Ref sig .tc) → Buf (Elt Ideal) ((c : Thread nD τ).loc b))
abbrev hNewOf (ah sh ss : S50000x128.Idx → EReal) (n : Fin 50000) (j : Fin 128) : EReal :=
  ah (ix2 n j) + Ideal.div (sh (ix2 n j)) (ss (ix2 n j) + Ideal.ofBits .f32 0x358637BD#32)
abbrev hNewAt (c : Dev nD) (n : Fin 50000) (j : Fin 128) : EReal :=
  hNewOf (V c (Pipeline.arrRef spec2 0)) (V c (Pipeline.arrRef spec2 1)) (V c (Pipeline.arrRef spec2 2)) n j
namespace Reg2
theorem combined_at (v0 v2 v4 : Vec Ideal S5000x128 .f32) (p : Fin 5000) (q : Fin 128) :
    k2_pay1 v0 v2 v4 (ix2 p q)
      = v0 (ix2 p q) + Ideal.div (v2 (ix2 p q)) (v4 (ix2 p q) + Ideal.ofBits .f32 0x358637BD#32) := by
  unfold k2_pay1
  simp only [shapeCast_self]
  rfl
theorem colsum_tile_at (x : FVec Ideal S5000x128 .f32) (r : Fin 8) (q : Fin 128) :
    broadcastTo S8x128 (shapeCast S1x128 (shapeCast S1x128
        (multiReduction (F := Ideal) .add [0] S128 x 0x00000000#32 reduces_S5000x128_S128 (.inl rfl) rfl)
        shapeCasts_S128_S1x128) shapeCasts_S1x128_S1x128) broadcasts_S1x128_S8x128 (ix2 r q)
      = ∑ k : Fin 5000, x (ix2 k q) := by
  refine (broadcastTo_1b_ab_apply _ _ r q).trans ?_
  refine (congrFun (shapeCast_self _ _) _).trans ?_
  refine (shapeCast_a_1a_apply _ _ (0 : Fin 1) q).trans ?_
  refine (Ideal.multiReduction_add_single x 0x00000000#32 reduces_S5000x128_S128 (.inl rfl) rfl (ix1 q)).trans ?_
  show ∑ k : Fin 5000, x (reduces_S5000x128_S128.lift (ix1 q) k) = _
  refine Finset.sum_congr rfl fun k _ => congrArg x (funext fun a => ?_)
  match a with
  | ⟨0, _⟩ => exact Fin.ext rfl
  | ⟨1, _⟩ => exact Fin.ext rfl
theorem stats_row0 (v0 v2 v4 : Vec Ideal S5000x128 .f32) (u : Fin 1) (q : Fin 128) :
    k2_pay2 v0 v2 v4 (ix3 u (0 : Fin 8) q) = ∑ k : Fin 5000, k2_pay1 v0 v2 v4 (ix2 k q) := by
  unfold k2_pay2
  refine (shapeCast_ab_1ab_apply _ _ u (0 : Fin 8) q).trans ?_
  refine (select_apply _ _ _ _).trans ?_
  refine (select_one _ _).trans ?_
  exact colsum_tile_at _ (0 : Fin 8) q
theorem stats_row1 (v0 v2 v4 : Vec Ideal S5000x128 .f32) (u : Fin 1) (q : Fin 128) :
    k2_pay2 v0 v2 v4 (ix3 u (1 : Fin 8) q)
      = ∑ k : Fin 5000, k2_pay1 v0 v2 v4 (ix2 k q) * k2_pay1 v0 v2 v4 (ix2 k q) := by
  unfold k2_pay2
  refine (shapeCast_ab_1ab_apply _ _ u (1 : Fin 8) q).trans ?_
  refine (select_apply _ _ _ _).trans ?_
  refine (select_zero _ _).trans ?_
  refine (select_apply _ _ _ _).trans ?_
  refine (select_one _ _).trans ?_
  exact colsum_tile_at _ (1 : Fin 8) q
def combinedArr (c : Dev nD) : S50000x128.Idx → EReal := fun i => hNewAt V c ⟨(i 0).val, idx2_lt0 i⟩ ⟨(i 1).val, idx2_lt1 i⟩
theorem zeros2 : (![0, 0] : Fin 2 → Nat) = fun _ => 0 := funext fun a => by fin_cases a <;> rfl
theorem zeros3 : (![0, 0, 0] : Fin 3 → Nat) = fun _ => 0 := funext fun a => by fin_cases a <;> rfl
theorem block_index : ∀ t : Fin cfg2.N,
    win2_3.index t (0 : Fin 2) = t.val ∧ win2_3.index t (1 : Fin 2) = 0
    ∧ win2_4.index t (0 : Fin 3) = t.val ∧ win2_4.index t (1 : Fin 3) = 0 ∧ win2_4.index t (2 : Fin 3) = 0
    ∧ ∀ a : Fin 2, win2_0.index t a = win2_3.index t a ∧ win2_1.index t a = win2_3.index t a ∧ win2_2.index t a = win2_3.index t a :=
  (by decide +kernel : ∀ t : Fin grid2.N, _)
theorem row_lt (t : Fin cfg2.N) (p : Fin 5000) : 5000 * t.val + p.val < 50000 := by
  have h := t.isLt; have hN : cfg2.N = 10 := N_2; omega
theorem sits3 (t : Fin cfg2.N) (p : Fin 5000) (q : Fin 128) :
    ((cfg2.win 3).blk t).view.emb (ix2 p q) = (ix2 ⟨5000 * t.val + p.val, row_lt t p⟩ q : S50000x128.Idx) := by
  obtain ⟨e0, e1, -⟩ := block_index t
  funext a; apply Fin.ext
  match a with
  | ⟨0, _⟩ => show win2_3.index t (0 : Fin 2) * 5000 + 1 * p.val = 5000 * t.val + p.val; omega
  | ⟨1, _⟩ => show win2_3.index t (1 : Fin 2) * 128 + 1 * q.val = q.val; omega
theorem blocks_at (c : Dev nD) (t : Fin cfg2.N) (j : S5000x128.Idx) :
    iblk2 V c 0 t j = (V c (Pipeline.arrRef spec2 0) : S50000x128.Idx → EReal) (((cfg2.win 3).blk t).view.emb j)
    ∧ iblk2 V c 1 t j = (V c (Pipeline.arrRef spec2 1) : S50000x128.Idx → EReal) (((cfg2.win 3).blk t).view.emb j)
    ∧ iblk2 V c 2 t j = (V c (Pipeline.arrRef spec2 2) : S50000x128.Idx → EReal) (((cfg2.win 3).blk t).view.emb j) := by
  obtain ⟨-, -, -, -, -, z⟩ := block_index t
  refine ⟨?_, ?_, ?_⟩
  · exact congrArg (V c (Pipeline.arrRef spec2 0) : S50000x128.Idx → EReal) (funext fun a => Fin.ext ((win2_0.rect_emb_val t j a).trans
      ((congrArg (· * win2_3.size a + (j a).val) (z a).1).trans (win2_3.rect_emb_val t j a).symm)))
  · exact congrArg (V c (Pipeline.arrRef spec2 1) : S50000x128.Idx → EReal) (funext fun a => Fin.ext ((win2_1.rect_emb_val t j a).trans
      ((congrArg (· * win2_3.size a + (j a).val) (z a).2.1).trans (win2_3.rect_emb_val t j a).symm)))
  · exact congrArg (V c (Pipeline.arrRef spec2 2) : S50000x128.Idx → EReal) (funext fun a => Fin.ext ((win2_2.rect_emb_val t j a).trans
      ((congrArg (· * win2_3.size a + (j a).val) (z a).2.2).trans (win2_3.rect_emb_val t j a).symm)))
theorem combined_block_at (c : Dev nD) (t : Fin cfg2.N) (p : Fin 5000) (q : Fin 128) :
    k2_pay1 (iblk2 V c 0 t) (iblk2 V c 1 t) (iblk2 V c 2 t) (ix2 p q)
      = hNewAt V c ⟨5000 * t.val + p.val, row_lt t p⟩ q := by
  obtain ⟨b0, b1, b2⟩ := blocks_at V c t (ix2 p q)
  rw [combined_at, b0, b1, b2, sits3 t p q]
theorem flushed3_eq (c : Dev nD) (t : Fin cfg2.N) :
    (dat2 (F := Ideal) V c).flushed 3 t = ((cfg2.win 3).blk t).view.read (Elt Ideal) (combinedArr V c) := by
  show (cfg2.win 3).cut (grid2.coords t) ((dat2 (F := Ideal) V c).after 3 t) = _
  rw [after2_3]
  unfold out2_3
  rw [View.canon_unit_zero zeros2]
  simp only [View.ld_unit_zero (S := S5000x128) zeros2]
  funext y
  obtain ⟨p, q, rfl⟩ : ∃ (p : Fin 5000) (q : Fin 128), y = ix2 p q := ⟨y 0, y 1, eq_ix2 y⟩
  show k2_pay1 (iblk2 V c 0 t) (iblk2 V c 1 t) (iblk2 V c 2 t) (ix2 p q)
    = combinedArr V c (((cfg2.win 3).blk t).view.emb (ix2 p q))
  rw [sits3 t p q]
  exact combined_block_at V c t p q
theorem covered3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, -⟩ := block_index t
  refine ⟨t, flush2_3 t, ?_⟩
  show i ∈ ((View.whole main_v16_0).slice (win2_3.rect t)).set
  rw [View.set_slice_whole, Rect.mem_set_unit]
  intro (a : Fin 2)
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega
abbrev pointOf (b : Fin 10) : Fin cfg2.N := ⟨b.val, by have h := b.isLt; have hN : cfg2.N = 10 := N_2; omega⟩
def statsArr (c : Dev nD) : S10x8x128.Idx → EReal := fun i =>
  k2_pay2 (iblk2 V c 0 (pointOf ⟨(i 0).val, (i 0).isLt⟩)) (iblk2 V c 1 (pointOf ⟨(i 0).val, (i 0).isLt⟩))
    (iblk2 V c 2 (pointOf ⟨(i 0).val, (i 0).isLt⟩)) (ix3 (0 : Fin 1) ⟨(i 1).val, (i 1).isLt⟩ ⟨(i 2).val, (i 2).isLt⟩)
theorem tile_lt (t : Fin cfg2.N) : t.val < 10 := by
  have h := t.isLt; have hN : cfg2.N = 10 := N_2; omega
theorem sits4 (t : Fin cfg2.N) (u : Fin 1) (r : Fin 8) (q : Fin 128) :
    ((cfg2.win 4).blk t).view.emb (ix3 u r q) = (ix3 ⟨t.val, tile_lt t⟩ r q : S10x8x128.Idx) := by
  obtain ⟨-, -, e0, e1, e2, -⟩ := block_index t
  have hu : u.val = 0 := by omega
  funext a; apply Fin.ext
  match a with
  | ⟨0, _⟩ => show win2_4.index t (0 : Fin 3) * 1 + 1 * u.val = t.val; omega
  | ⟨1, _⟩ => show win2_4.index t (1 : Fin 3) * 8 + 1 * r.val = r.val; omega
  | ⟨2, _⟩ => show win2_4.index t (2 : Fin 3) * 128 + 1 * q.val = q.val; omega
theorem flushed4_eq (c : Dev nD) (t : Fin cfg2.N) :
    (dat2 (F := Ideal) V c).flushed 4 t = ((cfg2.win 4).blk t).view.read (Elt Ideal) (statsArr V c) := by
  show (cfg2.win 4).cut (grid2.coords t) ((dat2 (F := Ideal) V c).after 4 t) = _
  rw [after2_4]
  unfold out2_4
  rw [View.canon_unit_zero zeros3]
  simp only [View.ld_unit_zero (S := S5000x128) zeros2]
  funext y
  obtain ⟨u, r, q, rfl⟩ : ∃ (u : Fin 1) (r : Fin 8) (q : Fin 128), y = ix3 u r q := ⟨y 0, y 1, y 2, eq_ix3 y⟩
  show k2_pay2 (iblk2 V c 0 t) (iblk2 V c 1 t) (iblk2 V c 2 t) (ix3 u r q)
    = statsArr V c (((cfg2.win 4).blk t).view.emb (ix3 u r q))
  rw [sits4 t u r q]
  obtain rfl : u = 0 := Subsingleton.elim _ _
  rfl
theorem covered4 (i : S10x8x128.Idx) :
    ∃ t : Fin cfg2.N, (cfg2.win 4).flush t = true ∧ i ∈ ((cfg2.win 4).blk t).view.set := by
  have hi1 : (i 1).val < 8 := (i 1).isLt
  have hi2 : (i 2).val < 128 := (i 2).isLt
  obtain ⟨t, ht⟩ : ∃ t : Fin cfg2.N, t.val = (i 0).val := ⟨pointOf ⟨(i 0).val, (i 0).isLt⟩, rfl⟩
  obtain ⟨-, -, e0, e1, e2, -⟩ := block_index t
  refine ⟨t, flush2_4 t, ?_⟩
  show i ∈ ((View.whole main_v16_1).slice (win2_4.rect t)).set
  rw [View.set_slice_whole, Rect.mem_set_unit]
  intro (a : Fin 3)
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 8 ≤ (i 1).val ∧ (i 1).val < win2_4.index t (1 : Fin 3) * 8 + 8; omega
  | ⟨2, _⟩ => show win2_4.index t (2 : Fin 3) * 128 ≤ (i 2).val ∧ (i 2).val < win2_4.index t (2 : Fin 3) * 128 + 128; omega
theorem stats_array (c : Dev nD) : (dat2 (F := Ideal) V c).arrAt 4 cfg2.N = statsArr V c :=
  (dat2 (F := Ideal) V c).arrAt_eq_of_cover 4 (statsArr V c) (fun t _ => flushed4_eq V c t) covered4
end Reg2
open Reg2
theorem final2_3 (c : Dev nD) (n : Fin 50000) (j : Fin 128) :
    ((dat2 (F := Ideal) V c).arrAt 3 cfg2.N : S50000x128.Idx → EReal) (ix2 n j) = hNewAt V c n j := by
  rw [(dat2 (F := Ideal) V c).arrAt_eq_of_cover 3 (combinedArr V c) (fun t _ => flushed3_eq V c t) (covered3)]
  rfl
theorem final2_4_sum (c : Dev nD) (b : Fin 10) (j : Fin 128) :
    ((dat2 (F := Ideal) V c).arrAt 4 cfg2.N : S10x8x128.Idx → EReal) (ix3 b 0 j)
      = ∑ l : Fin 5000, hNewAt V c ⟨5000 * b.val + l.val, by omega⟩ j := by
  rw [stats_array V c]
  refine (stats_row0 _ _ _ (0 : Fin 1) j).trans ?_
  exact Finset.sum_congr rfl fun l _ => combined_block_at V c (pointOf b) l j
theorem final2_4_sumsq (c : Dev nD) (b : Fin 10) (j : Fin 128) :
    ((dat2 (F := Ideal) V c).arrAt 4 cfg2.N : S10x8x128.Idx → EReal) (ix3 b 1 j)
      = ∑ l : Fin 5000, hNewAt V c ⟨5000 * b.val + l.val, by omega⟩ j * hNewAt V c ⟨5000 * b.val + l.val, by omega⟩ j := by
  rw [stats_array V c]
  show k2_pay2 (iblk2 V c 0 (pointOf b)) (iblk2 V c 1 (pointOf b)) (iblk2 V c 2 (pointOf b)) (ix3 (0 : Fin 1) (1 : Fin 8) j) = _
  refine (stats_row1 _ _ _ (0 : Fin 1) j).trans ?_
  exact Finset.sum_congr rfl fun l _ => by rw [combined_block_at V c (pointOf b) l j]
end Cert.KernelIdeal.HandValue
end
-- ==== Proof.LibFinite.lean ====
import Idealize.ShloMosaic.PureOps.Ideal.Laws
namespace Cert.Lib
open Idealize.ShloMosaic
theorem div_coe_coe (a b : ℝ) (hb : b ≠ 0) :
    Ideal.div (a : EReal) (b : EReal) = ((a / b : ℝ) : EReal) := by
  rw [Ideal.div_coe hb, ← EReal.coe_mul, mul_one_div]
def IsReal (z : EReal) : Prop := ∃ r : ℝ, z = (r : EReal)
theorem isReal_zero : IsReal 0 := ⟨0, rfl⟩
theorem IsReal.add {x y : EReal} : IsReal x → IsReal y → IsReal (x + y) := by
  rintro ⟨a, rfl⟩ ⟨b, rfl⟩
  exact ⟨a + b, (EReal.coe_add a b).symm⟩
theorem IsReal.mul {x y : EReal} : IsReal x → IsReal y → IsReal (x * y) := by
  rintro ⟨a, rfl⟩ ⟨b, rfl⟩
  exact ⟨a * b, (EReal.coe_mul a b).symm⟩
theorem IsReal.sum {ι : Type*} (s : Finset ι) (f : ι → EReal) (h : ∀ i ∈ s, IsReal (f i)) :
    IsReal (∑ i ∈ s, f i) :=
  Finset.sum_induction f IsReal (fun _ _ => IsReal.add) isReal_zero h
theorem IsReal.div {x y : EReal} : IsReal x → IsReal y → y ≠ 0 → IsReal (Ideal.div x y) := by
  rintro ⟨a, rfl⟩ ⟨b, rfl⟩ h0
  exact ⟨a / b, div_coe_coe a b fun e => h0 (by rw [e, EReal.coe_zero])⟩
end Cert.Lib
-- ==== Proof.Algebra.lean ====
import proofs.«413210_j12120397710134_3_alg».proof.Proof.Spec
import proofs.«413210_j12120397710134_3_alg».proof.Proof.LibFinite
namespace Cert.Alg
open Cert.Spec Cert.Lib Idealize.ShloMosaic
theorem coe_sum {ι : Type*} (s : Finset ι) (f : ι → ℝ) :
    ∑ i ∈ s, ((f i : ℝ) : EReal) = ((∑ i ∈ s, f i : ℝ) : EReal) := by
  classical
  refine Finset.induction_on s rfl fun c t hc ih => ?_
  rw [Finset.sum_insert hc, Finset.sum_insert hc, ih, EReal.coe_add]
def IsNonnegReal (z : EReal) : Prop := ∃ r : ℝ, 0 ≤ r ∧ z = (r : EReal)
theorem IsNonnegReal.sum {ι : Type*} (s : Finset ι) (f : ι → EReal) (h : ∀ i ∈ s, IsNonnegReal (f i)) :
    IsNonnegReal (∑ i ∈ s, f i) := by
  refine Finset.sum_induction f IsNonnegReal ?_ ⟨0, le_refl 0, rfl⟩ h
  rintro _ _ ⟨p, hp, rfl⟩ ⟨q, hq, rfl⟩
  exact ⟨p + q, add_nonneg hp hq, (EReal.coe_add p q).symm⟩
def AllReal (a : Args) : Prop :=
  (∀ i k, IsReal (a.h i k)) ∧ (∀ i k, IsReal (a.e i k)) ∧ (∀ k j, IsReal (a.Aw k j)) ∧ (∀ j, IsReal (a.Ab j)) ∧
  (∀ k j, IsReal (a.Bw k j)) ∧ (∀ j, IsReal (a.Bb j)) ∧ (∀ k j, IsReal (a.Cw k j)) ∧ (∀ j, IsReal (a.Cb j)) ∧
  (∀ k j, IsReal (a.Dw k j)) ∧ (∀ j, IsReal (a.Db j)) ∧ (∀ k j, IsReal (a.Ew k j)) ∧ (∀ j, IsReal (a.Eb j)) ∧
  (∀ j, IsReal (a.gh j)) ∧ (∀ j, IsReal (a.bh j)) ∧ (∀ j, IsReal (a.ge j)) ∧ (∀ j, IsReal (a.be j))
theorem isReal_lin {n : ℕ} (x : Fin n → Fin 128 → EReal) (W : Fin 128 → Fin 128 → EReal) (b : Fin 128 → EReal)
    (hx : ∀ i k, IsReal (x i k)) (hW : ∀ k j, IsReal (W k j)) (hb : ∀ j, IsReal (b j))
    (i : Fin n) (j : Fin 128) : IsReal (lin x W b i j) :=
  (IsReal.sum _ _ fun k _ => (hx i k).mul (hW k j)).add (hb j)
theorem isReal_eNew (a : Args) (ha : AllReal a) (r : Fin 500000) (j : Fin 128) : IsReal (eNew a r j) := by
  obtain ⟨hh, he, -, -, -, -, hCw, hCb, hDw, hDb, hEw, hEb, -⟩ := ha
  exact ((isReal_lin a.h a.Dw a.Db hh hDw hDb _ j).add (isReal_lin a.h a.Ew a.Eb hh hEw hEb _ j)).add
    (isReal_lin a.e a.Cw a.Cb he hCw hCb r j)
theorem isReal_hNew (a : Args) (ha : AllReal a) (ε : ℝ) (hε : 0 < ε) (he : a.eps6 = (ε : EReal))
    (n : Fin 50000) (j : Fin 128) : IsReal (hNew a n j) := by
  have hsig : ∀ r, IsNonnegReal (sig a r j) := fun r => by
    obtain ⟨t, ht⟩ := isReal_eNew a ha r j
    exact ⟨(1 + Real.exp (-t))⁻¹, by positivity, by unfold sig; rw [ht, Ideal.logistic_coe]⟩
  obtain ⟨m, hm0, hm⟩ : IsNonnegReal (sumSig a n j) :=
    IsNonnegReal.sum _ _ fun r _ => by split; exacts [hsig r, ⟨0, le_refl 0, rfl⟩]
  obtain ⟨hh, -, hAw, hAb, hBw, hBb, -⟩ := ha
  have hnum : IsReal (sumSigH a n j) := IsReal.sum _ _ fun r _ => by
    split
    exacts [(isReal_lin a.h a.Bw a.Bb hh hBw hBb _ j).mul (let ⟨t, _, ht⟩ := hsig r; ⟨t, ht⟩), isReal_zero]
  unfold hNew
  refine (isReal_lin a.h a.Aw a.Ab hh hAw hAb n j).add ?_
  rw [hm, he, ← EReal.coe_add]
  exact hnum.div ⟨_, rfl⟩ (by exact_mod_cast (add_pos_of_nonneg_of_pos hm0 hε).ne')
theorem mean_sq_dev_eq {n : ℕ} (hn : 0 < n) (y : Fin n → ℝ) :
    (∑ i, (y i - (∑ i, y i) / n) * (y i - (∑ i, y i) / n)) / n
      = (∑ i, y i * y i) / n - ((∑ i, y i) / n) * ((∑ i, y i) / n) := by
  have hn' : ((n : ℕ) : ℝ) ≠ 0 := Nat.cast_ne_zero.mpr hn.ne'
  generalize hS : (∑ i, y i) = S
  have hsum : ∑ i, (y i - S / n) * (y i - S / n)
      = ∑ i, y i * y i - 2 * (S / n) * S + n * ((S / n) * (S / n)) := by
    simp only [show ∀ i, (y i - S / n) * (y i - S / n) = y i * y i - 2 * (S / n) * y i + (S / n) * (S / n) from
      fun i => by ring]
    rw [Finset.sum_add_distrib, Finset.sum_sub_distrib, ← Finset.mul_sum, hS, Finset.sum_const, Finset.card_univ,
      Fintype.card_fin, nsmul_eq_mul]
  rw [hsum]
  field_simp
  ring
theorem bnReluK_eq_bnRelu {n : ℕ} (hn : 0 < n) (x xin : Fin n → Fin 128 → EReal) (cnt eps : EReal)
    (g b : Fin 128 → EReal) (hx : ∀ i j, IsReal (x i j)) (hcnt : cnt = (((n : ℕ) : ℝ) : EReal)) :
    bnReluK x xin cnt eps g b = bnRelu x xin cnt eps g b := by
  subst hcnt
  choose y hy using hx
  obtain rfl : x = fun i j => (y i j : EReal) := funext₂ hy
  have hn' : ((n : ℕ) : ℝ) ≠ 0 := Nat.cast_ne_zero.mpr hn.ne'
  funext i j
  unfold bnReluK bnPoint bnRelu colVarK colVar colMean
  simp only [← EReal.coe_mul, ← EReal.coe_sub, coe_sum, div_coe_coe _ _ hn']
  rw [← mean_sq_dev_eq hn (fun i => y i j), max_eq_left (EReal.coe_nonneg.mpr
    (div_nonneg (Finset.sum_nonneg fun i _ => mul_self_nonneg _) (Nat.cast_nonneg n)))]
theorem block_row_lt {B L : ℕ} (b : Fin B) (l : Fin L) : L * b.val + l.val < B * L := by
  have h := Nat.mul_le_mul_left L b.isLt
  rw [Nat.mul_succ, Nat.mul_comm L B] at h
  exact Nat.lt_of_lt_of_le (Nat.add_lt_add_left l.isLt _) h
theorem sum_blocks (B L n : ℕ) (hn : n = B * L) (f : Fin n → EReal) :
    (∑ b : Fin B, ∑ l : Fin L, f ⟨L * b.val + l.val, by rw [hn]; exact block_row_lt b l⟩) = ∑ i : Fin n, f i := by
  subst hn
  rw [← Equiv.sum_comp finProdFinEquiv f, Fintype.sum_prod_type]
  exact Finset.sum_congr rfl fun b _ => Finset.sum_congr rfl fun l _ => congrArg f (Fin.ext (Nat.add_comm _ _))
end Cert.Alg
-- ==== Proof.KI.ArgsOf.lean ====
import proofs.«413210_j12120397710134_3_alg».proof.KernelIdeal
import proofs.«413210_j12120397710134_3_alg».proof.Proof.Spec
noncomputable section
namespace Cert.KernelIdeal.HandValue
open Idealize.ShloMosaic Idealize.SL.Sem Cert.KernelIdeal
def argsOf (m : (ℓ : Loc nD τ sig) → Buf (Elt Ideal) ℓ) (c : Dev nD) : Cert.Spec.Args :=
  Cert.Spec.mkArgs
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16)) (m ((c.tc : Thread nD τ).loc main_arg17))
end Cert.KernelIdeal.HandValue
end
-- ==== Proof.KI.PreFacts.lean ====
import proofs.«413210_j12120397710134_3_alg».proof.Defs
import proofs.«413210_j12120397710134_3_alg».proof.Proof.Gen.Pre_finite_inputs
import proofs.«413210_j12120397710134_3_alg».proof.Proof.LibFinite
import proofs.«413210_j12120397710134_3_alg».proof.Proof.Algebra
import proofs.«413210_j12120397710134_3_alg».proof.Proof.KI.ArgsOf
import Idealize.ShloMosaic.Lib.ReduceAll
import Idealize.ShloMosaic.Lib.ValueIdx
noncomputable section
namespace Cert.KernelIdeal.PreFacts
open Cert.KernelIdeal Cert.KernelIdeal.HandValue Idealize.ShloMosaic Idealize.ShloMosaic.ValueIdx
attribute [local instance] Cert.Pre_finite_inputs.Gen.facts
local instance scalarIdxSubsingleton : Subsingleton (⟨0, ![]⟩ : Shape).Idx :=
  ⟨fun a b => funext fun d => d.elim0⟩
section OneTest
variable {s : Shape} {axes : List (Fin s.rank)}
  {hb : (⟨0, ![]⟩ : Shape).BroadcastsInDim s (![] : Fin 0 → Fin s.rank)}
  {hr : s.ReducesTo axes ⟨0, ![]⟩} {h0 : 0 < (⟨0, ![]⟩ : Shape).numel} {j : (⟨0, ![]⟩ : Shape).Idx}
theorem ofBool_eq_one (b : Bool) : BitVec.ofBool b = 1#1 ↔ b = true := by cases b <;> decide
theorem inf_pattern : Ideal.ofBits .f32 0x7F800000#32 = (⊤ : EReal) := by
  simp [Ideal.ofBits, Ideal.ieee]
theorem isReal_of_abs_lt_top (x : EReal) (h : max x (-x) < ⊤) : Cert.Lib.IsReal x := by
  induction x using EReal.rec with
  | bot => exact absurd h (by simp)
  | coe r => exact ⟨r, rfl⟩
  | top => exact absurd h (by simp)
-- An "and" over all entries of |x| < ∞ that comes out true leaves every entry real.
theorem real_of_all_abs_lt_inf {x : FVec Ideal s .f32}
    (h : Host.reduce IntOp.andi
          (cmpf .olt (Host.absf x) (broadcastInDim s ![] hb (constant ⟨0, ![]⟩ .f32 0x7F800000#32)))
          (constantI ⟨0, ![]⟩ 1 1#1) hr h0 j = 1#1)
    (i : s.Idx) : Cert.Lib.IsReal (x i) := by
  have e : BitVec.ofBool (decide (max (x i) (-(x i)) < Ideal.ofBits .f32 0x7F800000#32)) = 1#1 :=
    Host.reduce_andi_all _ _ hr h0 j h i
  rw [inf_pattern] at e
  exact isReal_of_abs_lt_top (x i) (of_decide_eq_true ((ofBool_eq_one _).1 e))
-- Both whole-array tests on an index array together bound every entry.
theorem range_of_tests {a : IVec s 32} {b : BitVec 32}
    (lo : Host.reduce IntOp.andi
          (cmpi .sge a (broadcastInDim s ![] hb (constantI ⟨0, ![]⟩ 32 0#32)))
          (constantI ⟨0, ![]⟩ 1 1#1) hr h0 j = 1#1)
    (hi : Host.reduce IntOp.andi
          (cmpi .slt a (broadcastInDim s ![] hb (constantI ⟨0, ![]⟩ 32 b)))
          (constantI ⟨0, ![]⟩ 1 1#1) hr h0 j = 1#1)
    (i : s.Idx) : 0 ≤ (a i).toInt ∧ (a i).toInt < b.toInt := by
  have e : IntOp.cmpi .sge (a i) 0#32 = 1#1 := Host.reduce_andi_all _ _ hr h0 j lo i
  have f : IntOp.cmpi .slt (a i) b = 1#1 := Host.reduce_andi_all _ _ hr h0 j hi i
  rw [IntOp.cmpi_sge] at e
  rw [IntOp.cmpi_slt] at f
  exact ⟨e, f⟩
end OneTest
-- Row numbers that are non-negative and below the number of nodes.
def InRows (x : S500000.Idx → BitVec 32) : Prop := ∀ r, 0 ≤ (x r).toInt ∧ (x r).toInt < 50000
variable (m : (ℓ : Loc nD τ sig) → Buf (Elt Ideal) ℓ)
variable (hpre : Cert.Pre_KernelIdeal m) (c : Dev nD)
include hpre
-- The precondition is one "and" of twenty whole-array tests; each conjunct is read off by the lemma for its test.
theorem decoded : Cert.Alg.AllReal (argsOf m c) ∧ InRows (m ((c.tc : Thread nD τ).loc main_arg2))
    ∧ InRows (m ((c.tc : Thread nD τ).loc main_arg3)) := by
  have e := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  simp only [andi, IntOp.andi_eq_one] at e
  obtain ⟨⟨⟨⟨⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩, hs0⟩, hs1⟩, hd0⟩, hd1⟩ := e
  refine ⟨?_, range_of_tests hs0 hs1, range_of_tests hd0 hd1⟩
  unfold Cert.Alg.AllReal
  exact ⟨fun i k => real_of_all_abs_lt_inf h0 (ix2 i k),
    fun i k => real_of_all_abs_lt_inf h1 (ix2 i k),
    fun k j => real_of_all_abs_lt_inf h4 (ix2 k j),
    fun j => real_of_all_abs_lt_inf h5 (ix1 j),
    fun k j => real_of_all_abs_lt_inf h6 (ix2 k j),
    fun j => real_of_all_abs_lt_inf h7 (ix1 j),
    fun k j => real_of_all_abs_lt_inf h8 (ix2 k j),
    fun j => real_of_all_abs_lt_inf h9 (ix1 j),
    fun k j => real_of_all_abs_lt_inf h10 (ix2 k j),
    fun j => real_of_all_abs_lt_inf h11 (ix1 j),
    fun k j => real_of_all_abs_lt_inf h12 (ix2 k j),
    fun j => real_of_all_abs_lt_inf h13 (ix1 j),
    fun j => real_of_all_abs_lt_inf h14 (ix1 j),
    fun j => real_of_all_abs_lt_inf h15 (ix1 j),
    fun j => real_of_all_abs_lt_inf h16 (ix1 j),
    fun j => real_of_all_abs_lt_inf h17 (ix1 j)⟩
theorem src_range (r : S500000.Idx) : 0 ≤ ((m ((c.tc : Thread nD τ).loc main_arg2) : S500000.Idx → BitVec 32) r).toInt ∧ ((m ((c.tc : Thread nD τ).loc main_arg2) : S500000.Idx → BitVec 32) r).toInt < 50000 :=
  (decoded m hpre c).2.1 r
theorem dst_range (r : S500000.Idx) : 0 ≤ ((m ((c.tc : Thread nD τ).loc main_arg3) : S500000.Idx → BitVec 32) r).toInt ∧ ((m ((c.tc : Thread nD τ).loc main_arg3) : S500000.Idx → BitVec 32) r).toInt < 50000 :=
  (decoded m hpre c).2.2 r
end Cert.KernelIdeal.PreFacts
end
-- ==== Proof.LibContract.lean ====
import Idealize.ShloMosaic.Lib.StackMember
noncomputable section
open scoped BigOperators
namespace Idealize.ShloMosaic.Pipeline
/-- Blocks whose index along one axis is the grid point itself are pairwise disjoint. -/
theorem Window.disjoint_of_rows {sig : RefSig} {G : Grid} (w : Window sig G) (a : Fin w.shape.rank)
    (h : ∀ t, w.index t a = t.val) (t t' : Fin G.N) (_ : w.flush t = true) (_ : w.flush t' = true) (hne : t ≠ t') :
    Disjoint (w.blk t).view.set (w.blk t').view.set :=
  w.disjoint_blk fun e => hne (Fin.ext ((h t).symm.trans ((congrFun e a).trans (h t'))))
end Idealize.ShloMosaic.Pipeline
namespace Idealize.ShloMosaic.Contract
open Idealize.ShloMosaic Idealize.ShloMosaic.ValueIdx
/-- A dot record with these six axis lists is the plain matrix product: entry (p, h) is the sum over k of L(p, k) · R(k, h). -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  obtain ⟨_, _, _, _, _, _, _⟩ := d
  cases hbl; cases hbr; cases hnl; cases hnr; cases hcl; cases hcr
  exact (Ideal.dotGeneral_apply _ prec sched L R _).trans
    ((Ideal.dotGeneral_apply _ prec .single L R _).symm.trans (StackMember.dotGeneral_plain_apply prec L R p h))
end Idealize.ShloMosaic.Contract
end
-- ==== Proof.KI.Final0.lean ====
import proofs.«413210_j12120397710134_3_alg».proof.Proof.KI.Reg0
import proofs.«413210_j12120397710134_3_alg».proof.Proof.LibContract
import Idealize.ShloMosaic.Lib.ValueLayout
noncomputable section
open scoped BigOperators
namespace Cert.KernelIdeal.HandValue
open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))
namespace Reg0
theorem origin2 : (![0, 0] : Fin 2 → Nat) = fun _ => 0 := funext fun a => by fin_cases a <;> rfl
/-- The block's payload is the plain product of its first two operands plus the bias row. -/
theorem proj_entry (x0 : Vec Ideal S5000x128 .f32) (x1 : Vec Ideal S128x512 .f32) (x2 : Vec Ideal S1x512 .f32)
    (p : Fin 5000) (q : Fin 512) :
    k0_pay1 x0 x1 x2 (ix2 p q) = (∑ k : Fin 128, x0 (ix2 p k) * x1 (ix2 k q)) + x2 (ix2 0 q) := by
  unfold k0_pay1
  simp only [shapeCast_self]
  exact congrArg₂ (· + ·)
    ((congrFun (matmul_zero_eq_dotGeneral _ none _ _) _).trans (StackMember.dotGeneral_plain_apply none _ _ p q))
    (broadcastTo_1b_ab_apply _ _ p q)
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)
end Reg0
abbrev affineEntry0 (A0 : S50000x128.Idx → EReal) (A1 : S128x512.Idx → EReal) (A2 : S1x512.Idx → EReal)
    (i : Fin 50000) (j : Fin 512) : EReal :=
  (∑ k : Fin 128, A0 (ix2 i k) * A1 (ix2 k j)) + A2 (ix2 0 j)
/-- Row `i` is row `i % 5000` of block `i / 5000`; distinct blocks are disjoint, so the final array holds that block's payload there. -/
theorem final0 (c : Dev nD) (i : Fin 50000) (j : Fin 512) :
    ((dat0 (F := Ideal) V c).arrAt 3 cfg0.N : S50000x512.Idx → EReal) (ix2 i j)
      = affineEntry0 (V c (Pipeline.arrRef spec0 0)) (V c (Pipeline.arrRef spec0 1)) (V c (Pipeline.arrRef spec0 2)) i j := by
  obtain ⟨t, p, hr⟩ : ∃ (t : Fin cfg0.N) (p : Fin 5000), i.val = 5000 * t.val + p.val :=
    ⟨⟨i.val / 5000, by rw [show cfg0.N = 10 from N_0]; omega⟩, ⟨i.val % 5000, by omega⟩,
      by show i.val = 5000 * (i.val / 5000) + i.val % 5000; omega⟩
  obtain ⟨e00, e01, e10, e11, e20, e21, e30, e31⟩ := Reg0.block_indices t
  have h := (dat0 (F := Ideal) V c).arrAt_emb_eq_flushed 3
    ((cfg0.win 3).disjoint_of_rows (0 : Fin 2) fun t => (Reg0.block_indices t).2.2.2.2.2.2.1) t (flush0_3 t) (ix2 p j)
  rw [show ((cfg0.win 3).blk t).view.emb (ix2 p j) = ix2 i j from Shape.idx_ext₂
    (by show win0_3.index t (0 : Fin 2) * 5000 + 1 * p.val = i.val; omega)
    (by show win0_3.index t (1 : Fin 2) * 512 + 1 * j.val = j.val; omega)] at h
  refine h.trans ?_
  show (cfg0.win 3).cut (grid0.coords t) ((dat0 (F := Ideal) V c).after 3 t) (ix2 p j) = _
  rw [after0_3]
  show out0_3 (F := Ideal) _ _ _ (ix2 p j) = _
  unfold out0_3
  rw [View.canon_unit_zero Reg0.origin2]
  simp only [View.ld_unit_zero (S := S5000x128) Reg0.origin2, View.ld_unit_zero (S := S128x512) Reg0.origin2,
    View.ld_unit_zero (S := S1x512) Reg0.origin2]
  refine (Reg0.proj_entry _ _ _ p j).trans
    (congrArg₂ (· + ·) (Finset.sum_congr rfl fun k _ => congrArg₂ (· * ·) ?_ ?_) ?_)
  · show V c (Pipeline.arrRef spec0 0) (((cfg0.win 0).blk t).view.emb (ix2 p k)) = _
    exact congrArg _ (Shape.idx_ext₂ (by show win0_0.index t (0 : Fin 2) * 5000 + 1 * p.val = i.val; omega)
      (by show win0_0.index t (1 : Fin 2) * 128 + 1 * k.val = k.val; omega))
  · show V c (Pipeline.arrRef spec0 1) (((cfg0.win 1).blk t).view.emb (ix2 k j)) = _
    exact congrArg _ (Shape.idx_ext₂ (by show win0_1.index t (0 : Fin 2) * 128 + 1 * k.val = k.val; omega)
      (by show win0_1.index t (1 : Fin 2) * 512 + 1 * j.val = j.val; omega))
  · show V c (Pipeline.arrRef spec0 2) (((cfg0.win 2).blk t).view.emb (ix2 (0 : Fin 1) j)) = _
    exact congrArg _ (Shape.idx_ext₂ (by show win0_2.index t (0 : Fin 2) * 1 + 1 * 0 = 0; omega)
      (by show win0_2.index t (1 : Fin 2) * 512 + 1 * j.val = j.val; omega))
end Cert.KernelIdeal.HandValue
end
-- ==== Proof.KI.Pay1.lean ====
import proofs.«413210_j12120397710134_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
noncomputable section
open scoped BigOperators
namespace Cert.KernelIdeal.HandValue
open Cert.KernelIdeal Cert.KernelIdeal.Gen
open Idealize.ShloMosaic Idealize.ShloMosaic.ValueIdx
namespace Reg1
variable (e : FVec Ideal S4000x128 .f32) (w : FVec Ideal S128x128 .f32) (b : FVec Ideal S1x128 .f32)
  (bh dh eh : FVec Ideal S4000x128 .f32)
/-- Every later payload is a function of the pre-activation `k1_pay2`. -/
theorem pay3_at (p : Fin 4000) (q : Fin 128) :
    k1_pay3 (F := Ideal) e w b dh eh (ix2 p q) = Ideal.logistic (k1_pay2 (F := Ideal) e w b dh eh (ix2 p q)) := rfl
theorem pay4_at (p : Fin 4000) (q : Fin 128) :
    k1_pay4 (F := Ideal) e w b bh dh eh (ix2 p q)
      = bh (ix2 p q) * Ideal.logistic (k1_pay2 (F := Ideal) e w b dh eh (ix2 p q)) := by
  unfold k1_pay4
  simp only [shapeCast_self]
  rfl
theorem colSum_at (x : FVec Ideal S4000x128 .f32) (q : Fin 128) :
    multiReduction (F := Ideal) .add [0] S128 x 0x00000000#32 reduces_S4000x128_S128 (.inl rfl) rfl (ix1 q)
      = ∑ l : Fin 4000, x (ix2 l q) := by
  refine (Ideal.multiReduction_add_single x 0x00000000#32 reduces_S4000x128_S128 (.inl rfl) rfl (ix1 q)).trans ?_
  exact Finset.sum_congr rfl fun l _ => congrArg x (Shape.idx_ext₂ rfl rfl)
theorem rowOver8_at (v : FVec Ideal S128 .f32) (s : Fin 8) (q : Fin 128) :
    broadcastTo S8x128 (shapeCast S1x128 (shapeCast S1x128 v shapeCasts_S128_S1x128) shapeCasts_S1x128_S1x128)
      broadcasts_S1x128_S8x128 (ix2 s q) = v (ix1 q) := by
  refine (broadcastTo_1b_ab_apply _ _ s q).trans ?_
  rw [shapeCast_self]
  exact shapeCast_a_1a_apply v _ 0 q
theorem pay7_at (s : Fin 8) (q : Fin 128) :
    k1_pay7 (F := Ideal) e w b dh eh (ix2 s q) = ∑ l : Fin 4000, k1_pay2 (F := Ideal) e w b dh eh (ix2 l q) := by
  unfold k1_pay7
  exact (rowOver8_at _ s q).trans (colSum_at _ q)
theorem pay5_at (q : Fin 128) :
    k1_pay5 (F := Ideal) e w b dh eh (ix2 (0 : Fin 1) q)
      = ∑ l : Fin 4000, k1_pay2 (F := Ideal) e w b dh eh (ix2 l q) * k1_pay2 (F := Ideal) e w b dh eh (ix2 l q) := by
  unfold k1_pay5
  exact (shapeCast_a_1a_apply _ _ 0 q).trans (colSum_at _ q)
theorem sublane_at (s : Fin 8) (q : Fin 128) :
    iota .tc S8x128 32 [0] iota_S8x128_d0_w32 (ix2 s q) = BitVec.ofNat 32 s.val :=
  iota_single_apply .tc S8x128 32 0 iota_S8x128_d0_w32 (ix2 s q)
/-- Row `s` of the 8-row statistics tile holds the column sums if `s = 0`, the sums of squares if `s = 1`, zero otherwise. -/
theorem pay1_at (sq : FVec Ideal S1x128 .f32) (sm : FVec Ideal S8x128 .f32) (s : Fin 8) (q : Fin 128) :
    k1_pay1 (F := Ideal) sq (iota .tc S8x128 32 [0] iota_S8x128_d0_w32) k1_pay6 sm k1_pay8 (ix3 (0 : Fin 1) s q)
      = Scalar.select (IntOp.cmpi .eq (BitVec.ofNat 32 s.val) (0#32)) (sm (ix2 s q))
          (Scalar.select (IntOp.cmpi .eq (BitVec.ofNat 32 s.val) (1#32)) (sq (ix2 (0 : Fin 1) q)) (Scalar.ofBits .f32 0x00000000#32)) := by
  unfold k1_pay1 k1_pay6 k1_pay8
  refine (shapeCast_ab_1ab_apply _ _ 0 s q).trans ?_
  show Scalar.select (IntOp.cmpi .eq (iota .tc S8x128 32 [0] iota_S8x128_d0_w32 (ix2 s q)) (0#32)) (sm (ix2 s q))
    (Scalar.select (IntOp.cmpi .eq (iota .tc S8x128 32 [0] iota_S8x128_d0_w32 (ix2 s q)) (1#32))
      (broadcastTo S8x128 (shapeCast S1x128 sq shapeCasts_S1x128_S1x128) broadcasts_S1x128_S8x128 (ix2 s q)) _) = _
  rw [sublane_at, shapeCast_self, broadcastTo_1b_ab_apply]
  rfl
end Reg1
end Cert.KernelIdeal.HandValue
end
-- ==== Proof.KI.Final1.lean ====
import proofs.«413210_j12120397710134_3_alg».proof.Proof.KI.Reg1
import proofs.«413210_j12120397710134_3_alg».proof.Proof.KI.Pay1
import proofs.«413210_j12120397710134_3_alg».proof.Proof.LibContract
import proofs.«413210_j12120397710134_3_alg».proof.Proof.Spec
set_option maxRecDepth 16384
noncomputable section
open scoped BigOperators
namespace Cert.KernelIdeal.HandValue
open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))
abbrev eNewOf (e : S500000x128.Idx → EReal) (bd : S500000x256.Idx → EReal) (eh : S500000x128.Idx → EReal)
    (cw : S128x128.Idx → EReal) (cb : S1x128.Idx → EReal) (r : Fin 500000) (j : Fin 128) : EReal :=
  (bd (ix2 r ⟨128 + j.val, by omega⟩) + eh (ix2 r j)) + ((∑ k : Fin 128, e (ix2 r k) * cw (ix2 k j)) + cb (ix2 0 j))
abbrev eNewAt (c : Dev nD) (r : Fin 500000) (j : Fin 128) : EReal :=
  eNewOf (V c (Pipeline.arrRef spec1 0)) (V c (Pipeline.arrRef spec1 1)) (V c (Pipeline.arrRef spec1 2))
    (V c (Pipeline.arrRef spec1 3)) (V c (Pipeline.arrRef spec1 4)) r j
abbrev edgeMsgOf (bd : S500000x256.Idx → EReal) (x : EReal) (r : Fin 500000) (j : Fin 128) : EReal :=
  bd (ix2 r ⟨j.val, by omega⟩) * Ideal.logistic x
abbrev edgeMsgAt (c : Dev nD) (r : Fin 500000) (j : Fin 128) : EReal :=
  edgeMsgOf (V c (Pipeline.arrRef spec1 1)) (eNewAt V c r j) r j
namespace Reg1
theorem idxIn : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ win1_4.index t (0 : Fin 2) = 0 ∧ win1_4.index t (1 : Fin 2) = 0 :=
  (by decide +kernel : ∀ t : Fin grid1.N, _)
theorem idxOut : ∀ t : Fin cfg1.N,
    (win1_5.index t (0 : Fin 2) = t.val ∧ win1_5.index t (1 : Fin 2) = 0)
    ∧ (win1_6.index t (0 : Fin 2) = t.val ∧ win1_6.index t (1 : Fin 2) = 0)
    ∧ win1_7.index t (0 : Fin 3) = t.val ∧ win1_7.index t (1 : Fin 3) = 0 ∧ win1_7.index t (2 : Fin 3) = 0 :=
  (by decide +kernel : ∀ t : Fin grid1.N, _)
theorem split (r : Fin 500000) : ∃ (t : Fin cfg1.N) (p : Fin 4000), r.val = 4000 * t.val + p.val :=
  ⟨⟨r.val / 4000, by rw [show cfg1.N = 125 from N_1]; omega⟩, ⟨r.val % 4000, by omega⟩,
    by show r.val = 4000 * (r.val / 4000) + r.val % 4000; omega⟩
theorem hz2 : (![0, 0] : Fin 2 → Nat) = fun _ => 0 := funext fun a => by fin_cases a <;> rfl
theorem hz3 : (![0, 0, 0] : Fin 3 → Nat) = fun _ => 0 := funext fun a => by fin_cases a <;> rfl
/-- Row `p` of block `t` is row `4000 t + p` of each whole array, so the block's pre-activation is the new edge feature there. -/
theorem pre_at (c : Dev nD) (t : Fin cfg1.N) (p : Fin 4000) (j : Fin 128) (r : Fin 500000)
    (hr : r.val = 4000 * t.val + p.val) :
    k1_pay2 (F := Ideal) (View.ld (iblk1 V c 0 t) gateRows) (View.ld (iblk1 V c 3 t) gateWeight) (View.ld (iblk1 V c 4 t) gateBias)
        (View.ld (iblk1 V c 1 t) gatePairHi) (View.ld (iblk1 V c 2 t) gateRows) (ix2 p j) = eNewAt V c r j := by
  obtain ⟨⟨a0, a1⟩, ⟨b0, b1⟩, ⟨c0, c1⟩, ⟨d0, d1⟩, f0, f1⟩ := idxIn t
  unfold k1_pay2
  simp only [shapeCast_self, View.ld_unit_zero (S := S4000x128) hz2, View.ld_unit_zero (S := S128x128) hz2, View.ld_unit_zero (S := S1x128) hz2]
  refine congrArg₂ (· + ·) (congrArg₂ (· + ·) ?_ ?_) (congrArg₂ (· + ·)
    (((congrFun (matmul_zero_eq_dotGeneral _ none _ _) _).trans (StackMember.dotGeneral_plain_apply none _ _ p j)).trans
      (Finset.sum_congr rfl fun k _ => congrArg₂ (· * ·) ?_ ?_)) ((broadcastTo_1b_ab_apply _ _ p j).trans ?_))
  · show V c (Pipeline.arrRef spec1 1) (((cfg1.win 1).blk t).view.emb (gatePairHi.idx (ix2 p j))) = _
    exact congrArg _ (Shape.idx_ext₂ (by show win1_1.index t (0 : Fin 2) * 4000 + 1 * (0 + 1 * p.val) = r.val; omega)
      (by show win1_1.index t (1 : Fin 2) * 256 + 1 * (128 + 1 * j.val) = 128 + j.val; omega))
  · show V c (Pipeline.arrRef spec1 2) (((cfg1.win 2).blk t).view.emb (ix2 p j)) = _
    exact congrArg _ (Shape.idx_ext₂ (by show win1_2.index t (0 : Fin 2) * 4000 + 1 * p.val = r.val; omega)
      (by show win1_2.index t (1 : Fin 2) * 128 + 1 * j.val = j.val; omega))
  · show V c (Pipeline.arrRef spec1 0) (((cfg1.win 0).blk t).view.emb (ix2 p k)) = _
    exact congrArg _ (Shape.idx_ext₂ (by show win1_0.index t (0 : Fin 2) * 4000 + 1 * p.val = r.val; omega)
      (by show win1_0.index t (1 : Fin 2) * 128 + 1 * k.val = k.val; omega))
  · show V c (Pipeline.arrRef spec1 3) (((cfg1.win 3).blk t).view.emb (ix2 k j)) = _
    exact congrArg _ (Shape.idx_ext₂ (by show win1_3.index t (0 : Fin 2) * 128 + 1 * k.val = k.val; omega)
      (by show win1_3.index t (1 : Fin 2) * 128 + 1 * j.val = j.val; omega))
  · show V c (Pipeline.arrRef spec1 4) (((cfg1.win 4).blk t).view.emb (ix2 (0 : Fin 1) j)) = _
    exact congrArg _ (Shape.idx_ext₂ (by show win1_4.index t (0 : Fin 2) * 1 + 1 * 0 = 0; omega)
      (by show win1_4.index t (1 : Fin 2) * 128 + 1 * j.val = j.val; omega))
/-- Distinct grid points write disjoint blocks, so an entry of a final array is the entry of the one block that covers it. -/
theorem at5 (c : Dev nD) (t : Fin cfg1.N) (p : Fin 4000) (j : Fin 128) (r : Fin 500000) (hr : r.val = 4000 * t.val + p.val) :
    ((dat1 (F := Ideal) V c).arrAt 5 cfg1.N : S500000x128.Idx → EReal) (ix2 r j)
      = out1_5 (F := Ideal) (iblk1 V c 0 t) (iblk1 V c 1 t) (iblk1 V c 2 t) (iblk1 V c 3 t) (iblk1 V c 4 t) (ix2 p j) := by
  obtain ⟨⟨e0, e1⟩, -⟩ := idxOut t
  have h := (dat1 (F := Ideal) V c).arrAt_emb_eq_flushed 5
    ((cfg1.win 5).disjoint_of_rows (0 : Fin 2) fun t => (idxOut t).1.1) t (flush1_5 t) (ix2 p j)
  rw [show ((cfg1.win 5).blk t).view.emb (ix2 p j) = ix2 r j from Shape.idx_ext₂
    (by show win1_5.index t (0 : Fin 2) * 4000 + 1 * p.val = r.val; omega)
    (by show win1_5.index t (1 : Fin 2) * 128 + 1 * j.val = j.val; omega)] at h
  exact h.trans (congrFun (congrArg ((cfg1.win 5).cut (grid1.coords t)) (after1_5 V c t)) _)
theorem at6 (c : Dev nD) (t : Fin cfg1.N) (p : Fin 4000) (q : Fin 256) (r : Fin 500000) (hr : r.val = 4000 * t.val + p.val) :
    ((dat1 (F := Ideal) V c).arrAt 6 cfg1.N : S500000x256.Idx → EReal) (ix2 r q)
      = out1_6 (F := Ideal) (iblk1 V c 0 t) (iblk1 V c 1 t) (iblk1 V c 2 t) (iblk1 V c 3 t) (iblk1 V c 4 t) (ix2 p q) := by
  obtain ⟨-, ⟨e0, e1⟩, -⟩ := idxOut t
  have h := (dat1 (F := Ideal) V c).arrAt_emb_eq_flushed 6
    ((cfg1.win 6).disjoint_of_rows (0 : Fin 2) fun t => (idxOut t).2.1.1) t (flush1_6 t) (ix2 p q)
  rw [show ((cfg1.win 6).blk t).view.emb (ix2 p q) = ix2 r q from Shape.idx_ext₂
    (by show win1_6.index t (0 : Fin 2) * 4000 + 1 * p.val = r.val; omega)
    (by show win1_6.index t (1 : Fin 2) * 256 + 1 * q.val = q.val; omega)] at h
  exact h.trans (congrFun (congrArg ((cfg1.win 6).cut (grid1.coords t)) (after1_6 V c t)) _)
theorem at7 (c : Dev nD) (t : Fin cfg1.N) (b : Fin 125) (hb : b.val = t.val) (s : Fin 8) (j : Fin 128) :
    ((dat1 (F := Ideal) V c).arrAt 7 cfg1.N : S125x8x128.Idx → EReal) (ix3 b s j)
      = out1_7 (F := Ideal) (iblk1 V c 0 t) (iblk1 V c 1 t) (iblk1 V c 2 t) (iblk1 V c 3 t) (iblk1 V c 4 t) (ix3 (0 : Fin 1) s j) := by
  obtain ⟨-, -, e0, e1, e2⟩ := idxOut t
  have hemb : ((cfg1.win 7).blk t).view.emb (ix3 (0 : Fin 1) s j) = ix3 b s j := by
    funext a; apply Fin.ext
    match a with
    | ⟨0, _⟩ => show win1_7.index t (0 : Fin 3) * 1 + 1 * 0 = b.val; omega
    | ⟨1, _⟩ => show win1_7.index t (1 : Fin 3) * 8 + 1 * s.val = s.val; omega
    | ⟨2, _⟩ => show win1_7.index t (2 : Fin 3) * 128 + 1 * j.val = j.val; omega
  have h := (dat1 (F := Ideal) V c).arrAt_emb_eq_flushed 7
    ((cfg1.win 7).disjoint_of_rows (0 : Fin 3) fun t => (idxOut t).2.2.1) t (flush1_7 t) (ix3 (0 : Fin 1) s j)
  rw [hemb] at h
  exact h.trans (congrFun (congrArg ((cfg1.win 7).cut (grid1.coords t)) (after1_7 V c t)) _)
end Reg1
open Reg1
theorem final1_5 (c : Dev nD) (r : Fin 500000) (j : Fin 128) :
    ((dat1 (F := Ideal) V c).arrAt 5 cfg1.N : S500000x128.Idx → EReal) (ix2 r j) = eNewAt V c r j := by
  obtain ⟨t, p, hr⟩ := split r
  refine (at5 V c t p j r hr).trans ?_
  unfold out1_5
  rw [View.canon_unit_zero hz2]
  exact pre_at V c t p j r hr
theorem final1_6_msg (c : Dev nD) (r : Fin 500000) (j : Fin 128) :
    ((dat1 (F := Ideal) V c).arrAt 6 cfg1.N : S500000x256.Idx → EReal) (ix2 r ⟨j.val, by omega⟩) = edgeMsgAt V c r j := by
  obtain ⟨t, p, hr⟩ := split r
  obtain ⟨-, ⟨b0, b1⟩, -⟩ := idxIn t
  refine (at6 V c t p _ r hr).trans ?_
  unfold out1_6
  have hnot : (ix2 p (⟨j.val, by omega⟩ : Fin 256) : S4000x256.Idx) ∉ gatePairHi.set := fun hm => by
    have h1 : 128 ≤ j.val := (Rect.mem_set_unit.mp hm (1 : Fin 2)).1
    omega
  rw [View.canon_cons_of_not_mem (⟨gatePairHi, _⟩ : View.Piece (Elt Ideal) S4000x256 .f32) _ hnot,
    show (ix2 p (⟨j.val, by omega⟩ : Fin 256) : S4000x256.Idx) = gatePairLo.emb (ix2 p j) from Shape.idx_ext₂
      (by show p.val = 0 + 1 * p.val; omega) (by show j.val = 0 + 1 * j.val; omega), View.canon_cons_emb]
  refine (pay4_at _ _ _ _ _ _ p j).trans (congrArg₂ (· * ·) ?_ (congrArg Ideal.logistic (pre_at V c t p j r hr)))
  show V c (Pipeline.arrRef spec1 1) (((cfg1.win 1).blk t).view.emb (gatePairLo.idx (ix2 p j))) = _
  exact congrArg _ (Shape.idx_ext₂ (by show win1_1.index t (0 : Fin 2) * 4000 + 1 * (0 + 1 * p.val) = r.val; omega)
    (by show win1_1.index t (1 : Fin 2) * 256 + 1 * (0 + 1 * j.val) = j.val; omega))
theorem final1_6_sig (c : Dev nD) (r : Fin 500000) (j : Fin 128) :
    ((dat1 (F := Ideal) V c).arrAt 6 cfg1.N : S500000x256.Idx → EReal) (ix2 r ⟨128 + j.val, by omega⟩)
      = Ideal.logistic (eNewAt V c r j) := by
  obtain ⟨t, p, hr⟩ := split r
  refine (at6 V c t p _ r hr).trans ?_
  unfold out1_6
  rw [show (ix2 p (⟨128 + j.val, by omega⟩ : Fin 256) : S4000x256.Idx) = gatePairHi.emb (ix2 p j) from Shape.idx_ext₂
    (by show p.val = 0 + 1 * p.val; omega) (by show 128 + j.val = 128 + 1 * j.val; omega), View.canon_cons_emb]
  exact congrArg Ideal.logistic (pre_at V c t p j r hr)
theorem final1_7_sum (c : Dev nD) (b : Fin 125) (j : Fin 128) :
    ((dat1 (F := Ideal) V c).arrAt 7 cfg1.N : S125x8x128.Idx → EReal) (ix3 b 0 j)
      = ∑ l : Fin 4000, eNewAt V c ⟨4000 * b.val + l.val, by omega⟩ j := by
  refine (at7 V c ⟨b.val, by rw [show cfg1.N = 125 from N_1]; exact b.isLt⟩ b rfl 0 j).trans ?_
  unfold out1_7
  rw [View.canon_unit_zero hz3]
  exact (((pay1_at _ _ 0 j).trans (select_one _ _)).trans (pay7_at _ _ _ _ _ 0 j)).trans (Finset.sum_congr rfl fun l _ => pre_at V c _ l j _ rfl)
theorem final1_7_sumsq (c : Dev nD) (b : Fin 125) (j : Fin 128) :
    ((dat1 (F := Ideal) V c).arrAt 7 cfg1.N : S125x8x128.Idx → EReal) (ix3 b 1 j)
      = ∑ l : Fin 4000, eNewAt V c ⟨4000 * b.val + l.val, by omega⟩ j * eNewAt V c ⟨4000 * b.val + l.val, by omega⟩ j := by
  refine (at7 V c ⟨b.val, by rw [show cfg1.N = 125 from N_1]; exact b.isLt⟩ b rfl 1 j).trans ?_
  unfold out1_7
  rw [View.canon_unit_zero hz3]
  exact (((pay1_at _ _ 1 j).trans ((select_zero _ _).trans (select_one _ _))).trans (pay5_at _ _ _ _ _ j)).trans
    (Finset.sum_congr rfl fun l _ => by
      have e := pre_at V c _ l j ⟨4000 * b.val + l.val, by omega⟩ rfl
      exact congrArg₂ (· * ·) e e)
end Cert.KernelIdeal.HandValue
end
-- ==== Proof.LibGatherRow.lean ====
import Idealize.ShloMosaic.PureOps
import Idealize.ShloMosaic.Lib.ValueIdx
noncomputable section
namespace Idealize.ShloMosaic.GatherRow
open Idealize.ShloMosaic Idealize.ShloMosaic.ValueIdx
variable {α : Type}
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf
def sel {N R w : Nat} (hN : 0 < N) (idx : IVec ⟨2, ![R, 1]⟩ w) (e : Fin R) : Fin N :=
  ⟨min (idx (ix2 e (0 : Fin 1))).toInt.toNat (N - 1), by omega⟩
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ => exact Nat.lt_one_iff.mp c.isLt
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    show (dims N D R wf).start y idx 0 + (dims N D R wf).batchCoord y 0 + (dims N D R wf).offCoord y 0 = _
    rw [GatherDims.batchCoord_eq_zero _ _ _ List.not_mem_nil,
      GatherDims.offCoord_eq_zero _ _ _ fun h => ((GatherDims.mem_sKept _ _).mp h).1 (List.mem_singleton.mpr rfl)]
    unfold GatherDims.start
    rw [dif_pos (show (0 : Fin 2) ∈ (dims N D R wf).startIndexMap from List.mem_singleton.mpr rfl), siIdx_row]
    rfl
  | ⟨1, _⟩ =>
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos ((GatherDims.mem_sKept _ _).mpr ⟨(by decide : (1 : Fin 2) ∉ [0]), List.not_mem_nil⟩)]
    simp only [Nat.zero_add]
    rfl
end Idealize.ShloMosaic.GatherRow
end
-- ==== Proof.LibScatterRows.lean ====
import Idealize.ShloMosaic.PureOps.Ideal
import Idealize.ShloMosaic.Lib.ValueIdx
noncomputable section
open scoped BigOperators
namespace Idealize.ShloMosaic.ScatterRows
open Idealize.ShloMosaic Idealize.ShloMosaic.ValueIdx
abbrev rowDims (R C N : ℕ)
    (wf : ScatterDims.WF (⟨2, ![R, C]⟩ : Shape) (⟨2, ![N, 1]⟩ : Shape) (⟨2, ![N, C]⟩ : Shape) [1] [0] [0] 1) :
    ScatterDims (⟨2, ![R, C]⟩ : Shape) (⟨2, ![N, 1]⟩ : Shape) (⟨2, ![N, C]⟩ : Shape) where
  updateWindowDims := [1]
  insertedWindowDims := [0]
  scatterDimsToOperandDims := [0]
  indexVectorDim := 1
  wf := wf
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    constructor
    · intro e a
      have := h a
      obtain rfl := Option.some.inj e
      show _ = (((d.start j idx a + (d.window j a : ℤ)).toNat : ℕ) : ℤ)
      omega
    · intro H
      refine congrArg some (funext fun a => Fin.ext ?_)
      have := H a
      show (d.start j idx a + (d.window j a : ℤ)).toNat = (i a).val
      omega
  · rename_i h
    refine iff_of_false (by simp) fun H => h fun a => ?_
    have := (i a).isLt
    rw [H a]
    omega
section Fields
variable {R C N w : ℕ}
  (wf : ScatterDims.WF (⟨2, ![R, C]⟩ : Shape) (⟨2, ![N, 1]⟩ : Shape) (⟨2, ![N, C]⟩ : Shape) [1] [0] [0] 1)
theorem sKept_rows : (rowDims R C N wf).sKept = ([1] : List (Fin 2)) := by
  show (List.finRange 2).filter (fun a : Fin 2 => decide (a ∉ ([0] : List (Fin 2)))) = [1]
  decide
theorem siIdx_rows (j : (⟨2, ![N, C]⟩ : Shape).Idx) (c : Fin (rowDims R C N wf).scatterDimsToOperandDims.length) :
    (rowDims R C N wf).siIdx j c = ix2 (j 0) (0 : Fin 1) := by
  funext a
  refine Fin.ext ?_
  match a with
  | ⟨0, _⟩ => rfl
  | ⟨1, _⟩ => exact Nat.lt_one_iff.mp c.isLt
theorem start_zero (j : (⟨2, ![N, C]⟩ : Shape).Idx) (idx : IVec (⟨2, ![N, 1]⟩ : Shape) w) :
    (rowDims R C N wf).start j idx (0 : Fin 2) = (idx (ix2 (j 0) (0 : Fin 1))).toInt := by
  unfold ScatterDims.start
  rw [dif_pos (show (0 : Fin 2) ∈ ([0] : List (Fin 2)) by decide), siIdx_rows]
  rfl
theorem start_one (j : (⟨2, ![N, C]⟩ : Shape).Idx) (idx : IVec (⟨2, ![N, 1]⟩ : Shape) w) :
    (rowDims R C N wf).start j idx (1 : Fin 2) = 0 := by
  unfold ScatterDims.start
  rw [dif_neg (show ¬ (1 : Fin 2) ∈ ([0] : List (Fin 2)) by decide)]
theorem window_zero (j : (⟨2, ![N, C]⟩ : Shape).Idx) :
    (rowDims R C N wf).window j (0 : Fin 2) = 0 := by
  unfold ScatterDims.window
  rw [dif_neg (by rw [sKept_rows]; show ¬ (0 : Fin 2) ∈ ([1] : List (Fin 2)); decide)]
theorem window_one (j : (⟨2, ![N, C]⟩ : Shape).Idx) :
    (rowDims R C N wf).window j (1 : Fin 2) = (j 1).val := by
  unfold ScatterDims.window
  rw [dif_pos (by rw [sKept_rows]; show (1 : Fin 2) ∈ ([1] : List (Fin 2)); decide)]
  rfl
end Fields
theorem hostScatterAdd_rows {R C N w : ℕ}
    (wf : ScatterDims.WF (⟨2, ![R, C]⟩ : Shape) (⟨2, ![N, 1]⟩ : Shape) (⟨2, ![N, C]⟩ : Shape) [1] [0] [0] 1)
    (x : (⟨2, ![R, C]⟩ : Shape).Idx → EReal) (idx : IVec (⟨2, ![N, 1]⟩ : Shape) w)
    (upd : (⟨2, ![N, C]⟩ : Shape).Idx → EReal) (r : Fin R) (h : Fin C) :
    Ideal.hostScatterAdd (rowDims R C N wf) x idx upd (ix2 r h)
      = x (ix2 r h) + ∑ b : Fin N, if (idx (ix2 b (0 : Fin 1))).toInt = (r.val : ℤ) then upd (ix2 b h) else 0 := by
  unfold Ideal.hostScatterAdd
  refine congrArg (x (ix2 r h) + ·) ?_
  rw [Finset.sum_filter, sum_idx2]
  refine Finset.sum_congr rfl fun b _ => ?_
  have hres : ∀ f, (rowDims R C N wf).resultIdx? (ix2 b f) idx = some (ix2 r h)
      ↔ (idx (ix2 b (0 : Fin 1))).toInt = (r.val : ℤ) ∧ f = h := fun f => by
    rw [resultIdx?_eq_some_iff, Fin.forall_fin_two, start_zero, start_one, window_zero, window_one, Fin.ext_iff]
    show (idx (ix2 b (0 : Fin 1))).toInt + ((0 : ℕ) : ℤ) = (r.val : ℤ) ∧ (0 : ℤ) + (f.val : ℤ) = (h.val : ℤ) ↔ _
    omega
  simp only [hres]
  by_cases hi : (idx (ix2 b (0 : Fin 1))).toInt = (r.val : ℤ)
  · simp only [hi, true_and, Finset.sum_ite_eq', Finset.mem_univ, if_true]
  · simp only [hi, false_and, if_false, Finset.sum_const_zero]
end Idealize.ShloMosaic.ScatterRows
end
-- ==== Proof.KI.HostA.lean ====
import proofs.«413210_j12120397710134_3_alg».proof.Proof.Gen.KernelIdeal.Launch
import proofs.«413210_j12120397710134_3_alg».proof.Proof.Spec
import proofs.«413210_j12120397710134_3_alg».proof.Proof.LibGatherRow
import proofs.«413210_j12120397710134_3_alg».proof.Proof.LibScatterRows
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
noncomputable section
open scoped BigOperators
namespace Cert.KernelIdeal.HostRead
open Cert.KernelIdeal Cert.KernelIdeal.Gen Idealize.ShloMosaic Idealize.ShloMosaic.ValueIdx
theorem cols_piece (x0 x1 x2 x3 : S128x128.Idx → EReal)
    (h : Shape.Concatenates [S128x128, S128x128, S128x128, S128x128] S128x512 1)
    (p : ℕ) (hp : p < 4) (x : S128x128.Idx → EReal)
    (hx : ([⟨S128x128, x0⟩, ⟨S128x128, x1⟩, ⟨S128x128, x2⟩, ⟨S128x128, x3⟩] :
      List ((s : Shape) × (s.Idx → EReal)))[p]'hp = ⟨S128x128, x⟩)
    (k j : Fin 128) (c : Fin 512) (hc : c.val = 128 * p + j.val) :
    concatenate S128x512 1 [⟨S128x128, x0⟩, ⟨S128x128, x1⟩, ⟨S128x128, x2⟩, ⟨S128x128, x3⟩] h (ix2 k c) = x (ix2 k j) :=
  concatenate_apply_piece (t := S128x512) 1 [⟨S128x128, x0⟩, ⟨S128x128, x1⟩, ⟨S128x128, x2⟩, ⟨S128x128, x3⟩] h (ix2 k c)
    p hp S128x128 x hx rfl (128 * p) (by interval_cases p <;> rfl) (ix2 k j)
    (fun b => match b with
      | ⟨0, _⟩ => fun _ => rfl
      | ⟨1, _⟩ => fun hb => absurd rfl hb)
    hc.symm
theorem vec_piece (y0 y1 y2 y3 : S128.Idx → EReal)
    (g : Shape.Concatenates [S128, S128, S128, S128] S512 0)
    (p : ℕ) (hp : p < 4) (y : S128.Idx → EReal)
    (hy : ([⟨S128, y0⟩, ⟨S128, y1⟩, ⟨S128, y2⟩, ⟨S128, y3⟩] :
      List ((s : Shape) × (s.Idx → EReal)))[p]'hp = ⟨S128, y⟩)
    (j : Fin 128) (c : Fin 512) (hc : c.val = 128 * p + j.val) :
    concatenate S512 0 [⟨S128, y0⟩, ⟨S128, y1⟩, ⟨S128, y2⟩, ⟨S128, y3⟩] g (ix1 c) = y (ix1 j) :=
  concatenate_apply_piece (t := S512) 0 [⟨S128, y0⟩, ⟨S128, y1⟩, ⟨S128, y2⟩, ⟨S128, y3⟩] g (ix1 c)
    p hp S128 y hy rfl (128 * p) (by interval_cases p <;> rfl) (ix1 j)
    (fun b => match b with
      | ⟨0, _⟩ => fun hb => absurd rfl hb)
    hc.symm
theorem column_apply (idx : S500000.Idx → BitVec 32) (r : Fin 500000) :
    broadcastInDim S500000x1 ![0] bcast_S500000_S500000x1_0 idx (ix2 r (0 : Fin 1)) = idx (ix1 r) :=
  broadcastInDim_apply _ _ _ _ (ix1 r) (fun a => match a with
    | ⟨0, _⟩ => rfl)
theorem take_rows {D : ℕ} (wf) (x : (⟨2, ![50000, D]⟩ : Shape).Idx → EReal) (idx : S500000.Idx → BitVec 32)
    (r : Fin 500000) (q : Fin D) :
    Host.gather (GatherRow.dims 50000 D 500000 wf) x (broadcastInDim S500000x1 ![0] bcast_S500000_S500000x1_0 idx) (ix2 r q)
      = x (ix2 (Cert.Spec.rowOf idx r) q) := by
  rw [GatherRow.gather_row_apply (by omega)]
  refine congrArg (fun n => x (ix2 n q)) (Fin.ext ?_)
  show min (broadcastInDim S500000x1 ![0] bcast_S500000_S500000x1_0 idx (ix2 r (0 : Fin 1))).toInt.toNat (50000 - 1) = _
  rw [column_apply]
  rfl
theorem segAll_apply (dst : S500000.Idx → BitVec 32) (upd : S500000x256.Idx → EReal) (n : Fin 50000) (h : Fin 256) :
    Host.scatterAdd (F := Ideal) scatter_S50000x256_S500000x1_S500000x256_1_0_0_1
        (broadcastInDim S50000x256 ![] bcast_S_S50000x256 (constant (F := Ideal) S_ .f32 0x00000000#32))
        (broadcastInDim S500000x1 ![0] bcast_S500000_S500000x1_0 dst) upd (ix2 n h)
      = ∑ b : Fin 500000, if (dst (ix1 b)).toInt = (n.val : ℤ) then upd (ix2 b h) else 0 := by
  have hd : scatter_S50000x256_S500000x1_S500000x256_1_0_0_1
      = ScatterRows.rowDims 50000 256 500000 scatter_S50000x256_S500000x1_S500000x256_1_0_0_1_wf := rfl
  show Ideal.hostScatterAdd scatter_S50000x256_S500000x1_S500000x256_1_0_0_1 _ _ upd (ix2 n h) = _
  rw [hd, ScatterRows.hostScatterAdd_rows, broadcastInDim_scalar_apply, constant_apply, Ideal.ofBits_zero_f32, zero_add]
  exact Finset.sum_congr rfl fun b _ => by rw [column_apply]
variable (X : Valuation τ sig (Elt Ideal))
theorem wcat_A (k j : Fin 128) :
    (StableHlo.after hostOps0 X (Proc.devRef .tc main_v0) : S128x512.Idx → EReal) (ix2 k ⟨j.val, by omega⟩)
      = (X (Proc.devRef .tc main_arg4) : S128x128.Idx → EReal) (ix2 k j) := by
  after_results
  exact cols_piece _ _ _ _ _ 0 (by omega) _ rfl k j _ (Nat.zero_add _).symm
theorem wcat_B (k j : Fin 128) :
    (StableHlo.after hostOps0 X (Proc.devRef .tc main_v0) : S128x512.Idx → EReal) (ix2 k ⟨128 + j.val, by omega⟩)
      = (X (Proc.devRef .tc main_arg6) : S128x128.Idx → EReal) (ix2 k j) := by
  after_results
  exact cols_piece _ _ _ _ _ 1 (by omega) _ rfl k j _ rfl
theorem wcat_D (k j : Fin 128) :
    (StableHlo.after hostOps0 X (Proc.devRef .tc main_v0) : S128x512.Idx → EReal) (ix2 k ⟨256 + j.val, by omega⟩)
      = (X (Proc.devRef .tc main_arg10) : S128x128.Idx → EReal) (ix2 k j) := by
  after_results
  exact cols_piece _ _ _ _ _ 2 (by omega) _ rfl k j _ rfl
theorem wcat_E (k j : Fin 128) :
    (StableHlo.after hostOps0 X (Proc.devRef .tc main_v0) : S128x512.Idx → EReal) (ix2 k ⟨384 + j.val, by omega⟩)
      = (X (Proc.devRef .tc main_arg12) : S128x128.Idx → EReal) (ix2 k j) := by
  after_results
  exact cols_piece _ _ _ _ _ 3 (by omega) _ rfl k j _ rfl
theorem bcat_A (j : Fin 128) :
    (StableHlo.after hostOps0 X (Proc.devRef .tc main_v2) : S1x512.Idx → EReal) (ix2 0 ⟨j.val, by omega⟩)
      = (X (Proc.devRef .tc main_arg5) : S128.Idx → EReal) (ix1 j) := by
  after_results
  exact (shapeCast_a_1a_apply _ _ 0 _).trans (vec_piece _ _ _ _ _ 0 (by omega) _ rfl j _ (Nat.zero_add _).symm)
theorem bcat_B (j : Fin 128) :
    (StableHlo.after hostOps0 X (Proc.devRef .tc main_v2) : S1x512.Idx → EReal) (ix2 0 ⟨128 + j.val, by omega⟩)
      = (X (Proc.devRef .tc main_arg7) : S128.Idx → EReal) (ix1 j) := by
  after_results
  exact (shapeCast_a_1a_apply _ _ 0 _).trans (vec_piece _ _ _ _ _ 1 (by omega) _ rfl j _ rfl)
theorem bcat_D (j : Fin 128) :
    (StableHlo.after hostOps0 X (Proc.devRef .tc main_v2) : S1x512.Idx → EReal) (ix2 0 ⟨256 + j.val, by omega⟩)
      = (X (Proc.devRef .tc main_arg11) : S128.Idx → EReal) (ix1 j) := by
  after_results
  exact (shapeCast_a_1a_apply _ _ 0 _).trans (vec_piece _ _ _ _ _ 2 (by omega) _ rfl j _ rfl)
theorem bcat_E (j : Fin 128) :
    (StableHlo.after hostOps0 X (Proc.devRef .tc main_v2) : S1x512.Idx → EReal) (ix2 0 ⟨384 + j.val, by omega⟩)
      = (X (Proc.devRef .tc main_arg13) : S128.Idx → EReal) (ix1 j) := by
  after_results
  exact (shapeCast_a_1a_apply _ _ 0 _).trans (vec_piece _ _ _ _ _ 3 (by omega) _ rfl j _ rfl)
theorem slice_v4 (i : Fin 50000) (j : Fin 128) :
    (StableHlo.after hostOps1 X (Proc.devRef .tc main_v4) : S50000x128.Idx → EReal) (ix2 i j)
      = (X (Proc.devRef .tc main_v3) : S50000x512.Idx → EReal) (ix2 i ⟨j.val, by omega⟩) := by
  after_results
  exact slice2_axis1_apply 0 _ _ i j _ (by show j.val = 0 + j.val; omega)
theorem slice_v5 (i : Fin 50000) (q : Fin 256) :
    (StableHlo.after hostOps1 X (Proc.devRef .tc main_v5) : S50000x256.Idx → EReal) (ix2 i q)
      = (X (Proc.devRef .tc main_v3) : S50000x512.Idx → EReal) (ix2 i ⟨128 + q.val, by omega⟩) := by
  after_results
  exact slice2_axis1_apply 128 _ _ i q _ rfl
theorem slice_v6 (i : Fin 50000) (j : Fin 128) :
    (StableHlo.after hostOps1 X (Proc.devRef .tc main_v6) : S50000x128.Idx → EReal) (ix2 i j)
      = (X (Proc.devRef .tc main_v3) : S50000x512.Idx → EReal) (ix2 i ⟨384 + j.val, by omega⟩) := by
  after_results
  exact slice2_axis1_apply 384 _ _ i j _ rfl
theorem take_v7 (r : Fin 500000) (q : Fin 256) :
    (StableHlo.after hostOps1_1 X (Proc.devRef .tc main_v7) : S500000x256.Idx → EReal) (ix2 r q)
      = (X (Proc.devRef .tc main_v5) : S50000x256.Idx → EReal)
          (ix2 (Cert.Spec.rowOf (X (Proc.devRef .tc main_arg2) : S500000.Idx → BitVec 32) r) q) := by
  after_results
  exact take_rows gather_S50000x256_S500000x1_S500000x256_1_0_n_n_0_1_1256_wf _ _ r q
theorem take_v8 (r : Fin 500000) (j : Fin 128) :
    (StableHlo.after hostOps1_2 X (Proc.devRef .tc main_v8) : S500000x128.Idx → EReal) (ix2 r j)
      = (X (Proc.devRef .tc main_v6) : S50000x128.Idx → EReal)
          (ix2 (Cert.Spec.rowOf (X (Proc.devRef .tc main_arg3) : S500000.Idx → BitVec 32) r) j) := by
  after_results
  exact take_rows gather_S50000x128_S500000x1_S500000x128_1_0_n_n_0_1_1128_wf _ _ r j
theorem reshape_v9 (j : Fin 128) :
    (StableHlo.after hostOps1_3 X (Proc.devRef .tc main_v9) : S1x128.Idx → EReal) (ix2 0 j)
      = (X (Proc.devRef .tc main_arg9) : S128.Idx → EReal) (ix1 j) := by
  after_results
  exact shapeCast_a_1a_apply _ _ 0 j
theorem reshape_v48 (j : Fin 128) :
    (StableHlo.after hostOps4 X (Proc.devRef .tc main_v48) : S1x128.Idx → EReal) (ix2 0 j)
      = (X (Proc.devRef .tc main_arg16) : S128.Idx → EReal) (ix1 j) := by
  after_results
  exact shapeCast_a_1a_apply _ _ 0 j
theorem reshape_v49 (j : Fin 128) :
    (StableHlo.after hostOps4 X (Proc.devRef .tc main_v49) : S1x128.Idx → EReal) (ix2 0 j)
      = (X (Proc.devRef .tc main_arg17) : S128.Idx → EReal) (ix1 j) := by
  after_results
  exact shapeCast_a_1a_apply _ _ 0 j
theorem segsum_v14 (n : Fin 50000) (j : Fin 128) :
    (StableHlo.after hostOps2 X (Proc.devRef .tc main_v14) : S50000x128.Idx → EReal) (ix2 n j)
      = (∑ b : Fin 500000, if ((X (Proc.devRef .tc main_arg3) : S500000.Idx → BitVec 32) (ix1 b)).toInt = (n.val : ℤ)
          then (X (Proc.devRef .tc main_v10_1) : S500000x256.Idx → EReal) (ix2 b ⟨j.val, by omega⟩) else 0 : EReal) := by
  after_results
  rw [slice2_axis1_apply 0 _ _ n j ⟨j.val, by omega⟩ (by show j.val = 0 + j.val; omega)]
  exact segAll_apply _ _ n _
theorem segsum_v15 (n : Fin 50000) (j : Fin 128) :
    (StableHlo.after hostOps2 X (Proc.devRef .tc main_v15) : S50000x128.Idx → EReal) (ix2 n j)
      = (∑ b : Fin 500000, if ((X (Proc.devRef .tc main_arg3) : S500000.Idx → BitVec 32) (ix1 b)).toInt = (n.val : ℤ)
          then (X (Proc.devRef .tc main_v10_1) : S500000x256.Idx → EReal) (ix2 b ⟨128 + j.val, by omega⟩) else 0 : EReal) := by
  after_results
  exact (slice2_axis1_apply 128 _ _ n j ⟨128 + j.val, by omega⟩ rfl).trans (segAll_apply _ _ n _)
end Cert.KernelIdeal.HostRead
end
-- ==== Proof.KI.Chain1.lean ====
import proofs.«413210_j12120397710134_3_alg».proof.Proof.KI.Run
import proofs.«413210_j12120397710134_3_alg».proof.Proof.KI.ArgsOf
import proofs.«413210_j12120397710134_3_alg».proof.Proof.KI.Final0
import proofs.«413210_j12120397710134_3_alg».proof.Proof.KI.Final1
import proofs.«413210_j12120397710134_3_alg».proof.Proof.KI.HostA
noncomputable section
namespace Cert.KernelIdeal.Chain
open Cert.KernelIdeal Cert.KernelIdeal.Gen Cert.KernelIdeal.Hand Cert.KernelIdeal.HandValue Cert.KernelIdeal.HostRead
open Idealize.ShloMosaic Idealize.ShloMosaic.TcCoe Idealize.SL.Sem Idealize.ShloMosaic.ValueIdx
open scoped BigOperators
variable (m : (ℓ : Loc nD τ sig) → Buf (Elt Ideal) ℓ) (ρ : Dev nD → PrngReg) (c : Dev nD)
local notation "a" => argsOf m c
-- A ref that none of the program's items writes.
abbrev Untouched (r : Ref sig .tc) : Prop :=
  r ∉ hostOps0_W ∧ r ∉ ([main_v3] : List (Ref sig .tc)) ∧ r ∉ hostOps1_W ∧ r ∉ hostOps1_1_W ∧ r ∉ hostOps1_2_W
    ∧ r ∉ hostOps1_3_W ∧ r ∉ ([main_v10_0, main_v10_1, main_v10_2] : List (Ref sig .tc)) ∧ r ∉ hostOps2_W
    ∧ r ∉ ([main_v16_0, main_v16_1] : List (Ref sig .tc)) ∧ r ∉ hostOps3_W ∧ r ∉ ([main_v47] : List (Ref sig .tc))
    ∧ r ∉ hostOps4_W
section Kept
variable (r : Ref sig .tc) (h : Untouched r)
include h
-- Such a ref holds its launch value after every item: each item leaves alone what it does not write.
theorem kept1 : W1 m ρ c (Proc.devRef .tc r) = m ((c.tc : Thread nD τ).loc r) :=
  (W1_of m ρ c r h.1).trans rfl
theorem kept3 : W3 m ρ c (Proc.devRef .tc r) = m ((c.tc : Thread nD τ).loc r) :=
  (W3_of m ρ c r h.2.2.1).trans ((W2_of m ρ c r h.2.1).trans (kept1 m ρ c r h))
theorem kept4 : W4 m ρ c (Proc.devRef .tc r) = m ((c.tc : Thread nD τ).loc r) :=
  (W4_of m ρ c r h.2.2.2.1).trans (kept3 m ρ c r h)
theorem kept5 : W5 m ρ c (Proc.devRef .tc r) = m ((c.tc : Thread nD τ).loc r) :=
  (W5_of m ρ c r h.2.2.2.2.1).trans (kept4 m ρ c r h)
theorem kept6 : W6 m ρ c (Proc.devRef .tc r) = m ((c.tc : Thread nD τ).loc r) :=
  (W6_of m ρ c r h.2.2.2.2.2.1).trans (kept5 m ρ c r h)
theorem kept7 : W7 m ρ c (Proc.devRef .tc r) = m ((c.tc : Thread nD τ).loc r) :=
  (W7_of m ρ c r h.2.2.2.2.2.2.1).trans (kept6 m ρ c r h)
theorem kept9 : W9 m ρ c (Proc.devRef .tc r) = m ((c.tc : Thread nD τ).loc r) :=
  (W9_of m ρ c r h.2.2.2.2.2.2.2.2.1).trans ((W8_of m ρ c r h.2.2.2.2.2.2.2.1).trans (kept7 m ρ c r h))
theorem kept10 : W10 m ρ c (Proc.devRef .tc r) = m ((c.tc : Thread nD τ).loc r) :=
  (W10_of m ρ c r h.2.2.2.2.2.2.2.2.2.1).trans (kept9 m ρ c r h)
theorem kept11 : W11 m ρ c (Proc.devRef .tc r) = m ((c.tc : Thread nD τ).loc r) :=
  (W11_of m ρ c r h.2.2.2.2.2.2.2.2.2.2.1).trans (kept10 m ρ c r h)
theorem kept12 : W12 m ρ c (Proc.devRef .tc r) = m ((c.tc : Thread nD τ).loc r) :=
  (W12_of m ρ c r h.2.2.2.2.2.2.2.2.2.2.2).trans (kept11 m ρ c r h)
end Kept
-- An entry of the wide product, with column q of the stacked weights and biases named by the caller.
theorem wide_at (i : Fin 50000) (q : Fin 512) {w : Fin 128 → EReal} {b : EReal}
    (hw : ∀ k, (W1 m ρ c (Proc.devRef .tc main_v0) : S128x512.Idx → EReal) (ix2 k q) = w k)
    (hb : (W1 m ρ c (Proc.devRef .tc main_v2) : S1x512.Idx → EReal) (ix2 0 q) = b) :
    (W2 m ρ c (Proc.devRef .tc main_v3) : S50000x512.Idx → EReal) (ix2 i q) = (∑ k : Fin 128, (a).h i k * w k) + b := by
  obtain rfl := funext hw
  subst hb
  refine (congrFun (W2_arr m ρ c 3) (ix2 i q)).trans ((final0 (Hand.V1 m ρ) c i q).trans ?_)
  show affineEntry0 (W1 m ρ c (Proc.devRef .tc main_arg0)) (W1 m ρ c (Proc.devRef .tc main_v0))
      (W1 m ρ c (Proc.devRef .tc main_v2)) i q = _
  rw [kept1 m ρ c main_arg0 (by decide)]
  rfl
theorem v4_eq (i : Fin 50000) (j : Fin 128) :
    (W3 m ρ c (Proc.devRef .tc main_v4) : S50000x128.Idx → EReal) (ix2 i j) = Cert.Spec.Ah a i j :=
  (slice_v4 (W2 m ρ c) i j).trans
    (wide_at m ρ c i _ (fun k => wcat_A (W0 m ρ c) k j) (bcat_A (W0 m ρ c) j))
theorem gathered_src (r : Fin 500000) (q : Fin 256) :
    (W6 m ρ c (Proc.devRef .tc main_v7) : S500000x256.Idx → EReal) (ix2 r q)
      = (W2 m ρ c (Proc.devRef .tc main_v3) : S50000x512.Idx → EReal) (ix2 ((a).rs r) ⟨128 + q.val, by omega⟩) := by
  refine (congrFun ((W6_of m ρ c main_v7 (by decide)).trans (W5_of m ρ c main_v7 (by decide))) (ix2 r q)).trans
    ((take_v7 (W3 m ρ c) r q).trans ?_)
  rw [kept3 m ρ c main_arg2 (by decide)]
  exact slice_v5 (W2 m ρ c) ((a).rs r) q
theorem v7_B (r : Fin 500000) (j : Fin 128) :
    (W6 m ρ c (Proc.devRef .tc main_v7) : S500000x256.Idx → EReal) (ix2 r ⟨j.val, by omega⟩) = Cert.Spec.Bh a ((a).rs r) j :=
  (gathered_src m ρ c r ⟨j.val, by omega⟩).trans
    (wide_at m ρ c _ ⟨128 + j.val, by omega⟩ (fun k => wcat_B (W0 m ρ c) k j) (bcat_B (W0 m ρ c) j))
theorem v7_D (r : Fin 500000) (j : Fin 128) :
    (W6 m ρ c (Proc.devRef .tc main_v7) : S500000x256.Idx → EReal) (ix2 r ⟨128 + j.val, by omega⟩) = Cert.Spec.Dh a ((a).rs r) j := by
  refine (gathered_src m ρ c r ⟨128 + j.val, by omega⟩).trans ?_
  refine Eq.trans (congrArg (fun q : Fin 512 => (W2 m ρ c (Proc.devRef .tc main_v3) : S50000x512.Idx → EReal) (ix2 ((a).rs r) q))
    (Fin.ext ?_)) (wide_at m ρ c _ ⟨256 + j.val, by omega⟩ (fun k => wcat_D (W0 m ρ c) k j) (bcat_D (W0 m ρ c) j))
  show 128 + (128 + j.val) = 256 + j.val
  omega
theorem v8_eq (r : Fin 500000) (j : Fin 128) :
    (W6 m ρ c (Proc.devRef .tc main_v8) : S500000x128.Idx → EReal) (ix2 r j) = Cert.Spec.Eh a ((a).rd r) j := by
  refine (congrFun (W6_of m ρ c main_v8 (by decide)) (ix2 r j)).trans ((take_v8 (W4 m ρ c) r j).trans ?_)
  rw [kept4 m ρ c main_arg3 (by decide), W4_of m ρ c main_v6 (by decide)]
  exact (slice_v6 (W2 m ρ c) ((a).rd r) j).trans
    (wide_at m ρ c _ _ (fun k => wcat_E (W0 m ρ c) k j) (bcat_E (W0 m ρ c) j))
theorem eNewAt_eq (r : Fin 500000) (j : Fin 128) : eNewAt (Hand.V6 m ρ) c r j = Cert.Spec.eNew a r j := by
  have h4 : (W6 m ρ c (Proc.devRef .tc main_v9) : S1x128.Idx → EReal) (ix2 0 j) = (a).Cb j :=
    (reshape_v9 (W5 m ρ c) j).trans (congrFun (kept5 m ρ c main_arg9 (by decide)) (ix1 j))
  show eNewOf (W6 m ρ c (Proc.devRef .tc main_arg1)) (W6 m ρ c (Proc.devRef .tc main_v7))
      (W6 m ρ c (Proc.devRef .tc main_v8)) (W6 m ρ c (Proc.devRef .tc main_arg8))
      (W6 m ρ c (Proc.devRef .tc main_v9)) r j = _
  rw [kept6 m ρ c main_arg1 (by decide), kept6 m ρ c main_arg8 (by decide)]
  show (_ + _) + (_ + _) = _
  rw [v7_D m ρ c r j, v8_eq m ρ c r j, h4]
  rfl
end Cert.KernelIdeal.Chain
end
-- ==== Proof.KI.Chain2.lean ====
import proofs.«413210_j12120397710134_3_alg».proof.Proof.KI.Final2
import proofs.«413210_j12120397710134_3_alg».proof.Proof.KI.PreFacts
import proofs.«413210_j12120397710134_3_alg».proof.Proof.KI.Chain1
set_option maxRecDepth 16384
noncomputable section
namespace Cert.KernelIdeal.Chain
open Cert.KernelIdeal Cert.KernelIdeal.Gen Cert.KernelIdeal.Hand Cert.KernelIdeal.HandValue Cert.KernelIdeal.HostRead
open Idealize.ShloMosaic Idealize.ShloMosaic.TcCoe Idealize.SL.Sem Idealize.ShloMosaic.ValueIdx
open scoped BigOperators
attribute [local instance] Cert.Pre_finite_inputs.Gen.facts
variable (m : (ℓ : Loc nD τ sig) → Buf (Elt Ideal) ℓ) (ρ : Dev nD → PrngReg) (c : Dev nD)
local notation "a" => argsOf m c
theorem v10_0_eq (r : Fin 500000) (j : Fin 128) :
    (Hand.W7 m ρ c (Proc.devRef .tc main_v10_0) : S500000x128.Idx → EReal) (ix2 r j) = Cert.Spec.eNew a r j :=
  (congrFun (Hand.W7_arr m ρ c 5) (ix2 r j)).trans
    ((final1_5 (Hand.V6 m ρ) c r j).trans (eNewAt_eq m ρ c r j))
theorem v10_1_msg (r : Fin 500000) (j : Fin 128) :
    (Hand.W7 m ρ c (Proc.devRef .tc main_v10_1) : S500000x256.Idx → EReal) (ix2 r ⟨j.val, by omega⟩)
      = Cert.Spec.Bh a ((a).rs r) j * Cert.Spec.sig a r j := by
  refine (congrFun (Hand.W7_arr m ρ c 6) (ix2 r ⟨j.val, by omega⟩)).trans
    ((final1_6_msg (Hand.V6 m ρ) c r j).trans ?_)
  exact congrArg₂ (fun x y : EReal => x * y) (v7_B m ρ c r j) (congrArg Ideal.logistic (eNewAt_eq m ρ c r j))
theorem v10_1_sig (r : Fin 500000) (j : Fin 128) :
    (Hand.W7 m ρ c (Proc.devRef .tc main_v10_1) : S500000x256.Idx → EReal) (ix2 r ⟨128 + j.val, by omega⟩)
      = Cert.Spec.sig a r j :=
  (congrFun (Hand.W7_arr m ρ c 6) (ix2 r ⟨128 + j.val, by omega⟩)).trans
    ((final1_6_sig (Hand.V6 m ρ) c r j).trans (congrArg Ideal.logistic (eNewAt_eq m ρ c r j)))
theorem ends_at_iff (hpre : Cert.Pre_KernelIdeal m) (b : Fin 500000) (n : Fin 50000) :
    ((Hand.W7 m ρ c (Proc.devRef .tc main_arg3) : S500000.Idx → BitVec 32) (ix1 b)).toInt = (n.val : ℤ)
      ↔ (a).rd b = n := by
  have hr := PreFacts.dst_range m hpre c (ix1 b)
  have hv : (((a).rd b).val : ℤ)
      = ((m ((c.tc : Thread nD τ).loc main_arg3) : S500000.Idx → BitVec 32) (ix1 b)).toInt :=
    Cert.Spec.rowOf_val_of_range (m ((c.tc : Thread nD τ).loc main_arg3)) b hr.1 hr.2
  rw [kept7 m ρ c main_arg3 (by decide), ← hv]
  exact ⟨fun h => Fin.ext (by exact_mod_cast h), fun h => by rw [h]⟩
theorem v14_eq (hpre : Cert.Pre_KernelIdeal m) (n : Fin 50000) (j : Fin 128) :
    (Hand.W8 m ρ c (Proc.devRef .tc main_v14) : S50000x128.Idx → EReal) (ix2 n j) = Cert.Spec.sumSigH a n j := by
  refine (segsum_v14 (Hand.W7 m ρ c) n j).trans ?_
  unfold Cert.Spec.sumSigH
  show @Eq EReal _ _
  exact Finset.sum_congr rfl fun b _ =>
    if_congr (ends_at_iff m ρ c hpre b n) (v10_1_msg m ρ c b j) rfl
theorem v15_eq (hpre : Cert.Pre_KernelIdeal m) (n : Fin 50000) (j : Fin 128) :
    (Hand.W8 m ρ c (Proc.devRef .tc main_v15) : S50000x128.Idx → EReal) (ix2 n j) = Cert.Spec.sumSig a n j := by
  refine (segsum_v15 (Hand.W7 m ρ c) n j).trans ?_
  unfold Cert.Spec.sumSig
  show @Eq EReal _ _
  exact Finset.sum_congr rfl fun b _ =>
    if_congr (ends_at_iff m ρ c hpre b n) (v10_1_sig m ρ c b j) rfl
theorem hNewAt_eq (hpre : Cert.Pre_KernelIdeal m) (n : Fin 50000) (j : Fin 128) :
    hNewAt (Hand.V8 m ρ) c n j = Cert.Spec.hNew a n j := by
  unfold Cert.Spec.hNew
  exact congrArg₂ (fun x y : EReal => x + y) ((congrFun
    ((Hand.W8_of m ρ c main_v4 (by decide)).trans <|
     (Hand.W7_of m ρ c main_v4 (by decide)).trans <|
     (Hand.W6_of m ρ c main_v4 (by decide)).trans <|
     (Hand.W5_of m ρ c main_v4 (by decide)).trans <|
     (Hand.W4_of m ρ c main_v4 (by decide))) (ix2 n j)).trans (v4_eq m ρ c n j))
    (congrArg₂ Ideal.div (v14_eq m ρ c hpre n j)
      (congrArg (fun x : EReal => x + Ideal.ofBits .f32 0x358637BD#32) (v15_eq m ρ c hpre n j)))
theorem v16_0_eq (hpre : Cert.Pre_KernelIdeal m) (n : Fin 50000) (j : Fin 128) :
    (Hand.W9 m ρ c (Proc.devRef .tc main_v16_0) : S50000x128.Idx → EReal) (ix2 n j) = Cert.Spec.hNew a n j :=
  (congrFun (Hand.W9_arr m ρ c 3) (ix2 n j)).trans
    ((final2_3 (Hand.V8 m ρ) c n j).trans (hNewAt_eq m ρ c hpre n j))
end Cert.KernelIdeal.Chain
end
-- ==== Proof.Consts.lean ====
import Idealize.ShloMosaic.PureOps.Ideal
import Mathlib.Data.EReal.Basic
import Mathlib.Tactic.NormNum
import Mathlib.Tactic.Positivity
noncomputable section
namespace Cert.Consts
open Idealize.ShloMosaic
theorem ofBits_50000 : Ideal.ofBits .f32 0x47435000#32 = ((((50000 : ℕ) : ℝ)) : EReal) := by
  simp [Ideal.ofBits, Ideal.ieee, -EReal.coe_mul]
  norm_num
theorem ofBits_500000 : Ideal.ofBits .f32 0x48F42400#32 = ((((500000 : ℕ) : ℝ)) : EReal) := by
  simp [Ideal.ofBits, Ideal.ieee, -EReal.coe_mul]
  norm_num
theorem ofBits_one : Ideal.ofBits .f32 0x3F800000#32 = (1 : EReal) := by
  simp [Ideal.ofBits, Ideal.ieee, -EReal.coe_mul]
  norm_num
theorem ofBits_eps6_pos : ∃ ε : ℝ, 0 < ε ∧ Ideal.ofBits .f32 0x358637BD#32 = (ε : EReal) := by
  refine ⟨8796093 / 2 ^ 43, by positivity, ?_⟩
  simp [Ideal.ofBits, Ideal.ieee, -EReal.coe_mul]
  norm_num
end Cert.Consts
end
-- ==== Proof.KI.Chain3.lean ====
import proofs.«413210_j12120397710134_3_alg».proof.Proof.KI.HostB
import proofs.«413210_j12120397710134_3_alg».proof.Proof.KI.Final3
import proofs.«413210_j12120397710134_3_alg».proof.Proof.KI.Final4
import proofs.«413210_j12120397710134_3_alg».proof.Proof.KI.Chain2
import proofs.«413210_j12120397710134_3_alg».proof.Proof.Consts
set_option maxRecDepth 4096
noncomputable section
namespace Cert.KernelIdeal.Chain
open Cert.KernelIdeal Cert.KernelIdeal.Gen Cert.KernelIdeal.Hand Cert.KernelIdeal.HandValue Cert.KernelIdeal.HostRead
open Idealize.ShloMosaic Idealize.ShloMosaic.TcCoe Idealize.SL.Sem Idealize.ShloMosaic.ValueIdx
open scoped BigOperators
attribute [local instance] Cert.Pre_finite_inputs.Gen.facts
variable (m : (ℓ : Loc nD τ sig) → Buf (Elt Ideal) ℓ) (ρ : Dev nD → PrngReg) (c : Dev nD)
local notation "a" => argsOf m c
theorem sumE (j : Fin 128) :
    ((∑ b : Fin 125, (W9 m ρ c (Proc.devRef .tc main_v10_2) : S125x8x128.Idx → EReal) (ix3 b 0 j)) : EReal)
      = ∑ r : Fin 500000, Cert.Spec.eNew a r j :=
  (Finset.sum_congr (M := EReal) rfl fun b _ =>
    (congrFun ((W9_of m ρ c main_v10_2 (by decide)).trans
      ((W8_of m ρ c main_v10_2 (by decide)).trans (W7_arr m ρ c 7))) _).trans
    ((final1_7_sum (Hand.V6 m ρ) c b j).trans
      (Finset.sum_congr (M := EReal) rfl fun l _ =>
        eNewAt_eq m ρ c _ j))).trans
    (Cert.Alg.sum_blocks 125 4000 500000 (by norm_num) (fun r => Cert.Spec.eNew a r j))
theorem sumsqE (j : Fin 128) :
    ((∑ b : Fin 125, (W9 m ρ c (Proc.devRef .tc main_v10_2) : S125x8x128.Idx → EReal) (ix3 b 1 j)) : EReal)
      = ∑ r : Fin 500000, Cert.Spec.eNew a r j * Cert.Spec.eNew a r j :=
  (Finset.sum_congr (M := EReal) rfl fun b _ =>
    (congrFun ((W9_of m ρ c main_v10_2 (by decide)).trans
      ((W8_of m ρ c main_v10_2 (by decide)).trans (W7_arr m ρ c 7))) _).trans
    ((final1_7_sumsq (Hand.V6 m ρ) c b j).trans
      (Finset.sum_congr (M := EReal) rfl fun l _ =>
        congrArg₂ (· * ·) (eNewAt_eq m ρ c _ j) (eNewAt_eq m ρ c _ j)))).trans
    (Cert.Alg.sum_blocks 125 4000 500000 (by norm_num) (fun r => Cert.Spec.eNew a r j * Cert.Spec.eNew a r j))
theorem meanE_eq (j : Fin 128) :
    (W10 m ρ c (Proc.devRef .tc main_v25) : S1x128.Idx → EReal) (ix2 0 j)
      = Cert.Spec.colMean (Cert.Spec.eNew a) (a).cntE j := by
  refine (mean_e (W9 m ρ c) j).trans ?_
  rw [sumE m ρ c j]
  rfl
theorem varE_eq (j : Fin 128) :
    (W10 m ρ c (Proc.devRef .tc main_v30) : S1x128.Idx → EReal) (ix2 0 j)
      = Cert.Spec.colVarK (Cert.Spec.eNew a) (a).cntE j := by
  refine (var_e (W9 m ρ c) j).trans ?_
  rw [sumE m ρ c j, sumsqE m ρ c j]
  rfl
theorem sumH (hpre : Cert.Pre_KernelIdeal m) (j : Fin 128) :
    ((∑ b : Fin 10, (W9 m ρ c (Proc.devRef .tc main_v16_1) : S10x8x128.Idx → EReal) (ix3 b 0 j)) : EReal)
      = ∑ n : Fin 50000, Cert.Spec.hNew a n j :=
  (Finset.sum_congr (M := EReal) rfl fun b _ =>
    (congrFun (W9_arr m ρ c 4) _).trans
    ((final2_4_sum (Hand.V8 m ρ) c b j).trans
      (Finset.sum_congr (M := EReal) rfl fun l _ =>
        hNewAt_eq m ρ c hpre _ j))).trans
    (Cert.Alg.sum_blocks 10 5000 50000 (by norm_num) (fun n => Cert.Spec.hNew a n j))
theorem sumsqH (hpre : Cert.Pre_KernelIdeal m) (j : Fin 128) :
    ((∑ b : Fin 10, (W9 m ρ c (Proc.devRef .tc main_v16_1) : S10x8x128.Idx → EReal) (ix3 b 1 j)) : EReal)
      = ∑ n : Fin 50000, Cert.Spec.hNew a n j * Cert.Spec.hNew a n j :=
  (Finset.sum_congr (M := EReal) rfl fun b _ =>
    (congrFun (W9_arr m ρ c 4) _).trans
    ((final2_4_sumsq (Hand.V8 m ρ) c b j).trans
      (Finset.sum_congr (M := EReal) rfl fun l _ =>
        congrArg₂ (· * ·) (hNewAt_eq m ρ c hpre _ j) (hNewAt_eq m ρ c hpre _ j)))).trans
    (Cert.Alg.sum_blocks 10 5000 50000 (by norm_num) (fun n => Cert.Spec.hNew a n j * Cert.Spec.hNew a n j))
theorem meanH_eq (hpre : Cert.Pre_KernelIdeal m) (j : Fin 128) :
    (W10 m ρ c (Proc.devRef .tc main_v39) : S1x128.Idx → EReal) (ix2 0 j)
      = Cert.Spec.colMean (Cert.Spec.hNew a) (a).cntN j := by
  refine (mean_h (W9 m ρ c) j).trans ?_
  rw [sumH m ρ c hpre j]
  rfl
theorem varH_eq (hpre : Cert.Pre_KernelIdeal m) (j : Fin 128) :
    (W10 m ρ c (Proc.devRef .tc main_v44) : S1x128.Idx → EReal) (ix2 0 j)
      = Cert.Spec.colVarK (Cert.Spec.hNew a) (a).cntN j := by
  refine (var_h (W9 m ρ c) j).trans ?_
  rw [sumH m ρ c hpre j, sumsqH m ρ c hpre j]
  rfl
-- The batch-norm point formula respects equality in each of its six varying arguments.
theorem bnPoint_congr {x x' h h' μ μ' v v' ε g g' b b' : EReal} (hx : x = x') (hh : h = h') (hμ : μ = μ') (hv : v = v')
    (hg : g = g') (hb : b = b') : Cert.Spec.bnPoint x h μ v ε g b = Cert.Spec.bnPoint x' h' μ' v' ε g' b' := by
  rw [hx, hh, hμ, hv, hg, hb]
theorem hNew_real (hpre : Cert.Pre_KernelIdeal m) (n : Fin 50000) (j : Fin 128) :
    Cert.Lib.IsReal (Cert.Spec.hNew a n j) := by
  obtain ⟨ε, hε, he⟩ := Cert.Consts.ofBits_eps6_pos
  exact Cert.Alg.isReal_hNew a (PreFacts.decoded m hpre c).1 ε hε he n j
theorem v47_eq (hpre : Cert.Pre_KernelIdeal m) (i : Fin 50000) (j : Fin 128) :
    (W13 m ρ c (Proc.devRef .tc main_v47) : S50000x128.Idx → EReal) (ix2 i j) = Cert.Spec.outH a i j :=
  (congrFun ((W13_of m ρ c main_v47 (by decide)).trans ((W12_of m ρ c main_v47 (by decide)).trans
    (W11_arr m ρ c 6))) (ix2 i j)).trans <| (final3 (Hand.V10 m ρ) c i j).trans <|
  (bnPoint_congr ((congrFun (W10_of m ρ c main_v16_0 (by decide)) _).trans (v16_0_eq m ρ c hpre i j))
    (congrFun (kept10 m ρ c main_arg0 (by decide)) _) (meanH_eq m ρ c hpre j) (varH_eq m ρ c hpre j)
    ((reshape_v45 (W9 m ρ c) j).trans (congrFun (kept9 m ρ c main_arg14 (by decide)) _))
    ((reshape_v46 (W9 m ρ c) j).trans (congrFun (kept9 m ρ c main_arg15 (by decide)) _))).trans
  (congrFun (congrFun (Cert.Alg.bnReluK_eq_bnRelu (n := 50000) (by norm_num) (Cert.Spec.hNew a) (a).h (a).cntN
    (a).eps5 (a).gh (a).bh (hNew_real m c hpre) Cert.Consts.ofBits_50000) i) j)
theorem v50_eq (hpre : Cert.Pre_KernelIdeal m) (i : Fin 500000) (j : Fin 128) :
    (W13 m ρ c (Proc.devRef .tc main_v50) : S500000x128.Idx → EReal) (ix2 i j) = Cert.Spec.outE a i j :=
  (congrFun (W13_arr m ρ c 6) (ix2 i j)).trans <| (final4 (Hand.V12 m ρ) c i j).trans <|
  (bnPoint_congr
    ((congrFun ((W12_of m ρ c main_v10_0 (by decide)).trans <| (W11_of m ρ c main_v10_0 (by decide)).trans <|
      (W10_of m ρ c main_v10_0 (by decide)).trans <| (W9_of m ρ c main_v10_0 (by decide)).trans
      (W8_of m ρ c main_v10_0 (by decide))) _).trans (v10_0_eq m ρ c i j))
    (congrFun (kept12 m ρ c main_arg1 (by decide)) _)
    ((congrFun ((W12_of m ρ c main_v25 (by decide)).trans (W11_of m ρ c main_v25 (by decide))) _).trans
      (meanE_eq m ρ c j))
    ((congrFun ((W12_of m ρ c main_v30 (by decide)).trans (W11_of m ρ c main_v30 (by decide))) _).trans
      (varE_eq m ρ c j))
    ((reshape_v48 (W11 m ρ c) j).trans (congrFun (kept11 m ρ c main_arg16 (by decide)) _))
    ((reshape_v49 (W11 m ρ c) j).trans (congrFun (kept11 m ρ c main_arg17 (by decide)) _))).trans
  (congrFun (congrFun (Cert.Alg.bnReluK_eq_bnRelu (n := 500000) (by norm_num) (Cert.Spec.eNew a) (a).e (a).cntE
    (a).eps5 (a).ge (a).be (Cert.Alg.isReal_eNew a (PreFacts.decoded m hpre c).1) Cert.Consts.ofBits_500000) i) j)
theorem v47_fun (hpre : Cert.Pre_KernelIdeal m) :
    (W13 m ρ c (Proc.devRef .tc main_v47) : S50000x128.Idx → EReal) = Cert.Spec.arr2 (Cert.Spec.outH a) := by
  refine funext fun (y : S50000x128.Idx) => ?_
  rw [eq_ix2 y]
  exact v47_eq m ρ c hpre (y 0) (y 1)
theorem v50_fun (hpre : Cert.Pre_KernelIdeal m) :
    (W13 m ρ c (Proc.devRef .tc main_v50) : S500000x128.Idx → EReal) = Cert.Spec.arr2 (Cert.Spec.outE a) := by
  refine funext fun (y : S500000x128.Idx) => ?_
  rw [eq_ix2 y]
  exact v50_eq m ρ c hpre (y 0) (y 1)
end Cert.KernelIdeal.Chain
end
-- ==== Proof.Ref.Run.lean ====
import proofs.«413210_j12120397710134_3_alg».proof.ReferenceIdeal
import proofs.«413210_j12120397710134_3_alg».proof.Proof.Gen.ReferenceIdeal
import Idealize.ShloMosaic.Lib.StableHlo.Run
import Idealize.ShloMosaic.Lib.Pipeline.Frame
set_option Elab.async false
noncomputable section
namespace Cert.ReferenceIdeal.RefRun
open Cert.ReferenceIdeal Cert.ReferenceIdeal.Gen Idealize.ShloMosaic Idealize.ShloMosaic.TcCoe Idealize.SL.Sem Idealize.ShloMosaic.StableHlo
variable {F : FTy → Type} [FloatOps F]
abbrev NodeT (F : FTy → Type) := (⟨S50000x128, .f32⟩ : BufTy).Contents (Elt F)
abbrev EdgeT (F : FTy → Type) := (⟨S500000x128, .f32⟩ : BufTy).Contents (Elt F)
abbrev MatT (F : FTy → Type) := (⟨S128x128, .f32⟩ : BufTy).Contents (Elt F)
abbrev VecT (F : FTy → Type) := (⟨S128, .f32⟩ : BufTy).Contents (Elt F)
abbrev ScalarT (F : FTy → Type) := (⟨S_, .f32⟩ : BufTy).Contents (Elt F)
abbrev IdxColT (F : FTy → Type) := (⟨S500000x1, .i32⟩ : BufTy).Contents (Elt F)
abbrev opsLinear : List (HloOp τ sig (Elt F)) :=
  [ binary main_arg0 main_arg4 main_v0 ((fun l r => Host.dotGeneral dot_S50000x128_S128x128_S50000x128_1_0_0_1_n_n none l r) : NodeT F → MatT F → NodeT F),
    unary main_arg5 main_v1 (broadcastInDim S1x128 ![1] bcast_S128_S1x128_1),
    unary main_v1 main_v2 (broadcastInDim S50000x128 ![0, 1] bcast_S1x128_S50000x128_0_1),
    binary main_v0 main_v2 main_v3 addf,
    binary main_arg0 main_arg6 main_v4 ((fun l r => Host.dotGeneral dot_S50000x128_S128x128_S50000x128_1_0_0_1_n_n none l r) : NodeT F → MatT F → NodeT F),
    unary main_arg7 main_v5 (broadcastInDim S1x128 ![1] bcast_S128_S1x128_1),
    unary main_v5 main_v6 (broadcastInDim S50000x128 ![0, 1] bcast_S1x128_S50000x128_0_1),
    binary main_v4 main_v6 main_v7 addf,
    binary main_arg0 main_arg10 main_v8 ((fun l r => Host.dotGeneral dot_S50000x128_S128x128_S50000x128_1_0_0_1_n_n none l r) : NodeT F → MatT F → NodeT F),
    unary main_arg11 main_v9 (broadcastInDim S1x128 ![1] bcast_S128_S1x128_1),
    unary main_v9 main_v10 (broadcastInDim S50000x128 ![0, 1] bcast_S1x128_S50000x128_0_1),
    binary main_v8 main_v10 main_v11 addf,
    binary main_arg0 main_arg12 main_v12 ((fun l r => Host.dotGeneral dot_S50000x128_S128x128_S50000x128_1_0_0_1_n_n none l r) : NodeT F → MatT F → NodeT F),
    unary main_arg13 main_v13 (broadcastInDim S1x128 ![1] bcast_S128_S1x128_1),
    unary main_v13 main_v14 (broadcastInDim S50000x128 ![0, 1] bcast_S1x128_S50000x128_0_1),
    binary main_v12 main_v14 main_v15 addf,
    binary main_arg1 main_arg8 main_v16 ((fun l r => Host.dotGeneral dot_S500000x128_S128x128_S500000x128_1_0_0_1_n_n none l r) : EdgeT F → MatT F → EdgeT F),
    unary main_arg9 main_v17 (broadcastInDim S1x128 ![1] bcast_S128_S1x128_1),
    unary main_v17 main_v18 (broadcastInDim S500000x128 ![0, 1] bcast_S1x128_S500000x128_0_1),
    binary main_v16 main_v18 main_v19 addf ]
abbrev opsEdge : List (HloOp τ sig (Elt F)) :=
  [ nullary main_c (constantI S_ 32 0#32),
    unary main_c main_v20 (broadcastInDim S500000 ![] bcast_S_S500000),
    binary main_arg2 main_v20 main_v21 (cmpi .slt),
    nullary main_c_0 (constantI S_ 32 50000#32),
    unary main_c_0 main_v22 (broadcastInDim S500000 ![] bcast_S_S500000),
    binary main_arg2 main_v22 main_v23 addi,
    ternary main_v21 main_v23 main_arg2 main_v24 select,
    unary main_v24 main_v25 (broadcastInDim S500000x1 ![0] bcast_S500000_S500000x1_0),
    binary main_v11 main_v25 main_v26 ((fun x i => Host.gather gather_S50000x128_S500000x1_S500000x128_1_0_n_n_0_1_1128 x i) : NodeT F → IdxColT F → EdgeT F),
    nullary main_c_1 (constantI S_ 32 0#32),
    unary main_c_1 main_v27 (broadcastInDim S500000 ![] bcast_S_S500000),
    binary main_arg3 main_v27 main_v28 (cmpi .slt),
    nullary main_c_2 (constantI S_ 32 50000#32),
    unary main_c_2 main_v29 (broadcastInDim S500000 ![] bcast_S_S500000),
    binary main_arg3 main_v29 main_v30 addi,
    ternary main_v28 main_v30 main_arg3 main_v31 select,
    unary main_v31 main_v32 (broadcastInDim S500000x1 ![0] bcast_S500000_S500000x1_0),
    binary main_v15 main_v32 main_v33 ((fun x i => Host.gather gather_S50000x128_S500000x1_S500000x128_1_0_n_n_0_1_1128 x i) : NodeT F → IdxColT F → EdgeT F),
    binary main_v26 main_v33 main_v34 addf,
    binary main_v34 main_v19 main_v35 addf ]
abbrev opsGate : List (HloOp τ sig (Elt F)) :=
  [ unary main_v35 main_v36 Host.negf,
    unary main_v36 main_v37 Host.exp,
    nullary main_cst (constant S_ .f32 0x3F800000#32),
    unary main_cst main_v38 (broadcastInDim S500000x128 ![] bcast_S_S500000x128),
    binary main_v38 main_v37 main_v39 addf,
    nullary main_cst_3 (constant S_ .f32 0x3F800000#32),
    unary main_cst_3 main_v40 (broadcastInDim S500000x128 ![] bcast_S_S500000x128),
    binary main_v40 main_v39 main_v41 Host.divf ]
abbrev opsMessage : List (HloOp τ sig (Elt F)) :=
  [ nullary main_c_4 (constantI S_ 32 0#32),
    unary main_c_4 main_v42 (broadcastInDim S500000 ![] bcast_S_S500000),
    binary main_arg2 main_v42 main_v43 (cmpi .slt),
    nullary main_c_5 (constantI S_ 32 50000#32),
    unary main_c_5 main_v44 (broadcastInDim S500000 ![] bcast_S_S500000),
    binary main_arg2 main_v44 main_v45 addi,
    ternary main_v43 main_v45 main_arg2 main_v46 select,
    unary main_v46 main_v47 (broadcastInDim S500000x1 ![0] bcast_S500000_S500000x1_0),
    binary main_v7 main_v47 main_v48 ((fun x i => Host.gather gather_S50000x128_S500000x1_S500000x128_1_0_n_n_0_1_1128 x i) : NodeT F → IdxColT F → EdgeT F),
    binary main_v48 main_v41 main_v49 mulf,
    nullary main_cst_6 (constant S_ .f32 0x00000000#32),
    unary main_cst_6 main_v50 (broadcastInDim S50000x128 ![] bcast_S_S50000x128) ]
abbrev opsAggregate : List (HloOp τ sig (Elt F)) :=
  [ unary main_arg3 main_v51 (broadcastInDim S500000x1 ![0] bcast_S500000_S500000x1_0),
    ternary main_v50 main_v51 main_v49 main_v52 ((fun x i u => Host.scatterAdd scatter_S50000x128_S500000x1_S500000x128_1_0_0_1 x i u) : NodeT F → IdxColT F → EdgeT F → NodeT F),
    nullary main_cst_7 (constant S_ .f32 0x00000000#32),
    unary main_cst_7 main_v53 (broadcastInDim S50000x128 ![] bcast_S_S50000x128),
    unary main_arg3 main_v54 (broadcastInDim S500000x1 ![0] bcast_S500000_S500000x1_0),
    ternary main_v53 main_v54 main_v41 main_v55 ((fun x i u => Host.scatterAdd scatter_S50000x128_S500000x1_S500000x128_1_0_0_1 x i u) : NodeT F → IdxColT F → EdgeT F → NodeT F),
    nullary main_cst_8 (constant S_ .f32 0x358637BD#32),
    unary main_cst_8 main_v56 (broadcastInDim S50000x128 ![] bcast_S_S50000x128),
    binary main_v55 main_v56 main_v57 addf,
    binary main_v52 main_v57 main_v58 Host.divf,
    binary main_v3 main_v58 main_v59 addf,
    nullary main_cst_9 (constant S_ .f32 0x00000000#32),
    binary main_v59 main_cst_9 main_v60 ((fun x v => Host.reduceAdd x v reducesTo_S50000x128_S128_d0 h_S_) : NodeT F → ScalarT F → VecT F),
    nullary main_cst_10 (constant S_ .f32 0x47435000#32),
    unary main_cst_10 main_v61 (broadcastInDim S128 ![] bcast_S_S128),
    binary main_v60 main_v61 main_v62 Host.divf,
    nullary main_c_11 (constantI S_ 32 0#32) ]
abbrev opsNodeVar : List (HloOp τ sig (Elt F)) :=
  [ TRef.nullary main_call0.cst (constant S_ .f32 0x00000000#32),
    TRef.binary (.of main_v59 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v59 : TRef sig ⟨S50000x128, .f32⟩) main_call0.v4 main_call0.v5 subf,
    TRef.binary main_call0.v5 main_call0.v5 main_call0.v6 mulf,
    TRef.unary (.of main_c_11 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]
abbrev opsNodeNorm : List (HloOp τ sig (Elt F)) :=
  [ unary main_v62 main_v64 (broadcastInDim S1x128 ![1] bcast_S128_S1x128_1),
    unary main_v64 main_v65 (broadcastInDim S50000x128 ![0, 1] bcast_S1x128_S50000x128_0_1),
    binary main_v59 main_v65 main_v66 subf,
    nullary main_cst_12 (constant S_ .f32 0x3727C5AC#32),
    unary main_cst_12 main_v67 (broadcastInDim S128 ![] bcast_S_S128),
    binary main_v63 main_v67 main_v68 addf,
    unary main_v68 main_v69 Host.rsqrt,
    unary main_v69 main_v70 (broadcastInDim S1x128 ![1] bcast_S128_S1x128_1),
    unary main_v70 main_v71 (broadcastInDim S50000x128 ![0, 1] bcast_S1x128_S50000x128_0_1),
    binary main_v66 main_v71 main_v72 mulf,
    unary main_arg14 main_v73 (broadcastInDim S1x128 ![1] bcast_S128_S1x128_1),
    unary main_v73 main_v74 (broadcastInDim S50000x128 ![0, 1] bcast_S1x128_S50000x128_0_1),
    binary main_v72 main_v74 main_v75 mulf,
    unary main_arg15 main_v76 (broadcastInDim S1x128 ![1] bcast_S128_S1x128_1),
    unary main_v76 main_v77 (broadcastInDim S50000x128 ![0, 1] bcast_S1x128_S50000x128_0_1),
    binary main_v75 main_v77 main_v78 addf ]
abbrev opsNodeRelu : List (HloOp τ sig (Elt F)) :=
  [ TRef.nullary main_call1.cst (constant S_ .f32 0x00000000#32),
    TRef.unary main_call1.cst main_call1.v0 (broadcastInDim S50000x128 ![] bcast_S_S50000x128),
    TRef.binary (.of main_v78 : TRef sig ⟨S50000x128, .f32⟩) main_call1.v0 main_call1.v1 maximumf ]
abbrev opsEdgeMean : List (HloOp τ sig (Elt F)) :=
  [ nullary main_cst_13 (constant S_ .f32 0x00000000#32),
    binary main_v35 main_cst_13 main_v80 ((fun x v => Host.reduceAdd x v reducesTo_S500000x128_S128_d0 h_S_) : EdgeT F → ScalarT F → VecT F),
    nullary main_cst_14 (constant S_ .f32 0x48F42400#32),
    unary main_cst_14 main_v81 (broadcastInDim S128 ![] bcast_S_S128),
    binary main_v80 main_v81 main_v82 Host.divf,
    nullary main_c_15 (constantI S_ 32 0#32) ]
abbrev opsEdgeVar : List (HloOp τ sig (Elt F)) :=
  [ TRef.nullary main_call2.cst (constant S_ .f32 0x00000000#32),
    TRef.binary (.of main_v35 : TRef sig ⟨S500000x128, .f32⟩) main_call2.cst main_call2.v0 (fun x v => Host.reduceAdd x v reducesTo_S500000x128_S128_d0 h_S_),
    TRef.unary main_call2.v0 main_call2.v1 (broadcastInDim S1x128 ![1] bcast_S128_S1x128_1),
    TRef.nullary main_call2.cst_0 (constant S_ .f32 0x48F42400#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S500000x128 ![0, 1] bcast_S1x128_S500000x128_0_1),
    TRef.binary (.of main_v35 : TRef sig ⟨S500000x128, .f32⟩) main_call2.v4 main_call2.v5 subf,
    TRef.binary main_call2.v5 main_call2.v5 main_call2.v6 mulf,
    TRef.unary (.of main_c_15 : TRef sig ⟨S_, .i32⟩) main_call2.v7 (sitofp .f32),
    TRef.nullary main_call2.cst_1 (constant S_ .f32 0x48F42400#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S500000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]
abbrev opsEdgeNorm : List (HloOp τ sig (Elt F)) :=
  [ unary main_v82 main_v84 (broadcastInDim S1x128 ![1] bcast_S128_S1x128_1),
    unary main_v84 main_v85 (broadcastInDim S500000x128 ![0, 1] bcast_S1x128_S500000x128_0_1),
    binary main_v35 main_v85 main_v86 subf,
    nullary main_cst_16 (constant S_ .f32 0x3727C5AC#32),
    unary main_cst_16 main_v87 (broadcastInDim S128 ![] bcast_S_S128),
    binary main_v83 main_v87 main_v88 addf,
    unary main_v88 main_v89 Host.rsqrt,
    unary main_v89 main_v90 (broadcastInDim S1x128 ![1] bcast_S128_S1x128_1),
    unary main_v90 main_v91 (broadcastInDim S500000x128 ![0, 1] bcast_S1x128_S500000x128_0_1),
    binary main_v86 main_v91 main_v92 mulf,
    unary main_arg16 main_v93 (broadcastInDim S1x128 ![1] bcast_S128_S1x128_1),
    unary main_v93 main_v94 (broadcastInDim S500000x128 ![0, 1] bcast_S1x128_S500000x128_0_1),
    binary main_v92 main_v94 main_v95 mulf,
    unary main_arg17 main_v96 (broadcastInDim S1x128 ![1] bcast_S128_S1x128_1),
    unary main_v96 main_v97 (broadcastInDim S500000x128 ![0, 1] bcast_S1x128_S500000x128_0_1),
    binary main_v95 main_v97 main_v98 addf ]
abbrev opsEdgeRelu : List (HloOp τ sig (Elt F)) :=
  [ TRef.nullary main_call3.cst (constant S_ .f32 0x00000000#32),
    TRef.unary main_call3.cst main_call3.v0 (broadcastInDim S500000x128 ![] bcast_S_S500000x128),
    TRef.binary (.of main_v98 : TRef sig ⟨S500000x128, .f32⟩) main_call3.v0 main_call3.v1 maximumf ]
abbrev opsNodeOut : List (HloOp τ sig (Elt F)) :=
  [ binary main_arg0 main_v79 main_v100 addf ]
abbrev opsEdgeOut : List (HloOp τ sig (Elt F)) :=
  [ binary main_arg1 main_v99 main_v101 addf ]
abbrev window0 : List (HloOp τ sig (Elt F)) := opsLinear ++ (opsEdge ++ (opsGate ++ opsMessage))
abbrev window1 : List (HloOp τ sig (Elt F)) :=
  opsAggregate ++ (opsNodeVar ++ (opsNodeNorm ++ (opsNodeRelu ++ (opsEdgeMean ++ (opsEdgeVar ++ (opsEdgeNorm ++ (opsEdgeRelu ++ opsNodeOut)))))))
abbrev window2 : List (HloOp τ sig (Elt F)) := opsEdgeOut
abbrev ops : List (HloOp τ sig (Elt F)) := window0 ++ (window1 ++ window2)
-- Both sides unfold to the same sequence of operations.
set_option maxRecDepth 8192 in
theorem main_eq (c : Dev nD) : main (F := F) c = seq ops := rfl
-- Every operation reads and writes only the TensorCore's buffers.
theorem ops_sub : (ops : List (HloOp τ sig (Elt F))).Forall fun op => op.bufs ⊆ tcRefs τ sig := by
  repeat' first
    | refine ⟨?_, ?_⟩
    | with_reducible exact nullary_bufs_sub .. | with_reducible exact unary_bufs_sub ..
    | with_reducible exact binary_bufs_sub .. | with_reducible exact ternary_bufs_sub ..
    | show _ ⊆ tcRefs τ sig
set_option maxRecDepth 8192 in
theorem run (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      r.2.mem ((c.tc : Thread nD τ).loc b) = StableHlo.after ops (fun b => m (c, b)) (Proc.devRef .tc b)) :=
  run_seq (by decide) (by decide) defs main (fun _ => ops) main_eq (fun _ => ops_sub) m ρ
abbrev wLinear : List (Ref sig .tc) :=
  [main_v0, main_v1, main_v2, main_v3, main_v4, main_v5, main_v6, main_v7, main_v8, main_v9, main_v10, main_v11, main_v12, main_v13,
   main_v14, main_v15, main_v16, main_v17, main_v18, main_v19]
abbrev wEdge : List (Ref sig .tc) :=
  [main_c, main_v20, main_v21, main_c_0, main_v22, main_v23, main_v24, main_v25, main_v26, main_c_1, main_v27, main_v28, main_c_2,
   main_v29, main_v30, main_v31, main_v32, main_v33, main_v34, main_v35]
abbrev wGate : List (Ref sig .tc) := [main_v36, main_v37, main_cst, main_v38, main_v39, main_cst_3, main_v40, main_v41]
abbrev wMessage : List (Ref sig .tc) :=
  [main_c_4, main_v42, main_v43, main_c_5, main_v44, main_v45, main_v46, main_v47, main_v48, main_v49, main_cst_6, main_v50]
abbrev wAggregate : List (Ref sig .tc) :=
  [main_v51, main_v52, main_cst_7, main_v53, main_v54, main_v55, main_cst_8, main_v56, main_v57, main_v58, main_v59, main_cst_9,
   main_v60, main_cst_10, main_v61, main_v62, main_c_11]
abbrev wNodeVar : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v63]
abbrev wNodeNorm : List (Ref sig .tc) :=
  [main_v64, main_v65, main_v66, main_cst_12, main_v67, main_v68, main_v69, main_v70, main_v71, main_v72, main_v73, main_v74,
   main_v75, main_v76, main_v77, main_v78]
abbrev wNodeRelu : List (Ref sig .tc) := [main_call1_cst, main_call1_v0, main_v79]
abbrev wEdgeMean : List (Ref sig .tc) := [main_cst_13, main_v80, main_cst_14, main_v81, main_v82, main_c_15]
abbrev wEdgeVar : List (Ref sig .tc) :=
  [main_call2_cst, main_call2_v0, main_call2_v1, main_call2_cst_0, main_call2_v2, main_call2_v3, main_call2_v4, main_call2_v5,
   main_call2_v6, main_call2_v7, main_call2_cst_1, main_call2_v8, main_call2_cst_2, main_call2_v9, main_call2_v10, main_call2_v11,
   main_call2_cst_3, main_call2_v12, main_call2_cst_4, main_call2_call0_v0, main_call2_call0_v1, main_v83]
abbrev wEdgeNorm : List (Ref sig .tc) :=
  [main_v84, main_v85, main_v86, main_cst_16, main_v87, main_v88, main_v89, main_v90, main_v91, main_v92, main_v93, main_v94,
   main_v95, main_v96, main_v97, main_v98]
abbrev wEdgeRelu : List (Ref sig .tc) := [main_call3_cst, main_call3_v0, main_v99]
abbrev wNodeOut : List (Ref sig .tc) := [main_v100]
abbrev wEdgeOut : List (Ref sig .tc) := [main_v101]
abbrev written : List (Ref sig .tc) :=
  (wLinear ++ (wEdge ++ (wGate ++ wMessage))) ++
    ((wAggregate ++ (wNodeVar ++ (wNodeNorm ++ (wNodeRelu ++ (wEdgeMean ++ (wEdgeVar ++ (wEdgeNorm ++ (wEdgeRelu ++ wNodeOut)))))))) ++
      wEdgeOut)
theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy
-- A subset of Wa, or of Wb, is a subset of Wa ++ Wb.
theorem writes_append {a b : List (HloOp τ sig (Elt F))} {Wa Wb : List (Ref sig .tc)}
    (ha : a.Forall fun op => op.writes ⊆ (Wa.map (Proc.devRef (τ := τ) .tc)).toFinset)
    (hb : b.Forall fun op => op.writes ⊆ (Wb.map (Proc.devRef (τ := τ) .tc)).toFinset) :
    (a ++ b).Forall fun op => op.writes ⊆ ((Wa ++ Wb).map (Proc.devRef (τ := τ) .tc)).toFinset := by
  rw [List.map_append, List.toFinset_append]
  exact List.forall_append.mpr ⟨ha.imp fun _ h => h.trans Finset.subset_union_left, hb.imp fun _ h => h.trans Finset.subset_union_right⟩
macro "writes_each" : tactic =>
  `(tactic| (simp only [List.Forall]
             repeat' (first | exact writes_sub_of_mem rfl (by decide) | constructor)))
theorem opsLinear_writes : (opsLinear : List (HloOp τ sig (Elt F))).Forall fun op => op.writes ⊆ (wLinear.map (Proc.devRef (τ := τ) .tc)).toFinset := by writes_each
theorem opsEdge_writes : (opsEdge : List (HloOp τ sig (Elt F))).Forall fun op => op.writes ⊆ (wEdge.map (Proc.devRef (τ := τ) .tc)).toFinset := by writes_each
theorem opsGate_writes : (opsGate : List (HloOp τ sig (Elt F))).Forall fun op => op.writes ⊆ (wGate.map (Proc.devRef (τ := τ) .tc)).toFinset := by writes_each
theorem opsMessage_writes : (opsMessage : List (HloOp τ sig (Elt F))).Forall fun op => op.writes ⊆ (wMessage.map (Proc.devRef (τ := τ) .tc)).toFinset := by writes_each
theorem opsAggregate_writes : (opsAggregate : List (HloOp τ sig (Elt F))).Forall fun op => op.writes ⊆ (wAggregate.map (Proc.devRef (τ := τ) .tc)).toFinset := by writes_each
theorem opsNodeVar_writes : (opsNodeVar : List (HloOp τ sig (Elt F))).Forall fun op => op.writes ⊆ (wNodeVar.map (Proc.devRef (τ := τ) .tc)).toFinset := by writes_each
theorem opsNodeNorm_writes : (opsNodeNorm : List (HloOp τ sig (Elt F))).Forall fun op => op.writes ⊆ (wNodeNorm.map (Proc.devRef (τ := τ) .tc)).toFinset := by writes_each
theorem opsNodeRelu_writes : (opsNodeRelu : List (HloOp τ sig (Elt F))).Forall fun op => op.writes ⊆ (wNodeRelu.map (Proc.devRef (τ := τ) .tc)).toFinset := by writes_each
theorem opsEdgeMean_writes : (opsEdgeMean : List (HloOp τ sig (Elt F))).Forall fun op => op.writes ⊆ (wEdgeMean.map (Proc.devRef (τ := τ) .tc)).toFinset := by writes_each
theorem opsEdgeVar_writes : (opsEdgeVar : List (HloOp τ sig (Elt F))).Forall fun op => op.writes ⊆ (wEdgeVar.map (Proc.devRef (τ := τ) .tc)).toFinset := by writes_each
theorem opsEdgeNorm_writes : (opsEdgeNorm : List (HloOp τ sig (Elt F))).Forall fun op => op.writes ⊆ (wEdgeNorm.map (Proc.devRef (τ := τ) .tc)).toFinset := by writes_each
theorem opsEdgeRelu_writes : (opsEdgeRelu : List (HloOp τ sig (Elt F))).Forall fun op => op.writes ⊆ (wEdgeRelu.map (Proc.devRef (τ := τ) .tc)).toFinset := by writes_each
theorem opsNodeOut_writes : (opsNodeOut : List (HloOp τ sig (Elt F))).Forall fun op => op.writes ⊆ (wNodeOut.map (Proc.devRef (τ := τ) .tc)).toFinset := by writes_each
theorem opsEdgeOut_writes : (opsEdgeOut : List (HloOp τ sig (Elt F))).Forall fun op => op.writes ⊆ (wEdgeOut.map (Proc.devRef (τ := τ) .tc)).toFinset := by writes_each
theorem ops_writes : (ops : List (HloOp τ sig (Elt F))).Forall fun op => op.writes ⊆ (written.map (Proc.devRef (τ := τ) .tc)).toFinset :=
  writes_append (writes_append opsLinear_writes (writes_append opsEdge_writes (writes_append opsGate_writes opsMessage_writes)))
    (writes_append
      (writes_append opsAggregate_writes (writes_append opsNodeVar_writes (writes_append opsNodeNorm_writes (writes_append opsNodeRelu_writes
        (writes_append opsEdgeMean_writes (writes_append opsEdgeVar_writes (writes_append opsEdgeNorm_writes (writes_append opsEdgeRelu_writes
          opsNodeOut_writes))))))))
      opsEdgeOut_writes)
theorem after_of_not_written (m : (ℓ : Loc nD τ sig) → Buf (Elt F) ℓ) (c : Dev nD) (r : Ref sig .tc) (h : r ∉ written) :
    StableHlo.after ops (fun b => m (c, b)) (Proc.devRef .tc r) = m ((c.tc : Thread nD τ).loc r) :=
  (after_of_writes_sub ops _ ops_writes h).trans rfl
theorem after_ops (V : Valuation τ sig (Elt F)) : StableHlo.after ops V = StableHlo.after window2 (StableHlo.after window1 (StableHlo.after window0 V)) := by
  repeat rw [StableHlo.after_append]
theorem after_window0 (V : Valuation τ sig (Elt F)) :
    StableHlo.after window0 V
      = StableHlo.after opsMessage (StableHlo.after opsGate (StableHlo.after opsEdge (StableHlo.after opsLinear V))) := by
  repeat rw [StableHlo.after_append]
theorem after_window1 (V : Valuation τ sig (Elt F)) :
    StableHlo.after window1 V
      = StableHlo.after opsNodeOut (StableHlo.after opsEdgeRelu (StableHlo.after opsEdgeNorm (StableHlo.after opsEdgeVar
          (StableHlo.after opsEdgeMean (StableHlo.after opsNodeRelu (StableHlo.after opsNodeNorm (StableHlo.after opsNodeVar
            (StableHlo.after opsAggregate V)))))))) := by
  repeat rw [StableHlo.after_append]
end Cert.ReferenceIdeal.RefRun
end
-- ==== Proof.Ref.Read2.lean ====
import proofs.«413210_j12120397710134_3_alg».proof.Proof.Ref.Run
import proofs.«413210_j12120397710134_3_alg».proof.Proof.Spec
import proofs.«413210_j12120397710134_3_alg».proof.Proof.Consts
import Idealize.ShloMosaic.Lib.IdealHost
import Idealize.ShloMosaic.Lib.Pipeline.Value
noncomputable section
namespace Cert.ReferenceIdeal.RefRead
open Cert.ReferenceIdeal Cert.ReferenceIdeal.Gen Cert.ReferenceIdeal.RefRun Idealize.ShloMosaic Idealize.ShloMosaic.ValueIdx
open Idealize.ShloMosaic.StableHlo (nullary unary binary ternary after TRef after_of_writes_sub)
theorem row_of_vec {α : Type} (h : S128.BroadcastsInDim S1x128 (![1] : Fin 1 → Fin S1x128.rank)) (v : S128.Idx → α)
    (j : Fin 128) : broadcastInDim S1x128 ![1] h v (ix2 (0 : Fin 1) j) = v (ix1 j) := by
  refine broadcastInDim_apply _ h v _ (ix1 j) (fun a => ?_)
  match a with
  | ⟨0, _⟩ => rfl
theorem rows_of_row {α : Type} {n : ℕ}
    (h : S1x128.BroadcastsInDim ⟨2, ![n, 128]⟩ (![0, 1] : Fin 2 → Fin (⟨2, ![n, 128]⟩ : Shape).rank))
    (v : S1x128.Idx → α) (i : Fin n) (j : Fin 128) :
    broadcastInDim ⟨2, ![n, 128]⟩ ![0, 1] h v (ix2 i j) = v (ix2 (0 : Fin 1) j) := by
  refine broadcastInDim_apply _ h v _ (ix2 (0 : Fin 1) j) (fun a => ?_)
  match a with
  | ⟨0, _⟩ => rfl
  | ⟨1, _⟩ => rfl
-- summing over the row axis, starting from zero, gives the column sum
theorem colsum_read {n : ℕ} (h' : (⟨2, ![n, 128]⟩ : Shape).ReducesTo [0] S128) (h : (⟨2, ![n, 128]⟩ : Shape).Reduces [0] S128)
    (hu : 0 < S_.numel) (x : FVec Ideal ⟨2, ![n, 128]⟩ .f32) (j : Fin 128) :
    Host.reduceAdd (F := Ideal) x (constant S_ .f32 0x00000000#32) h' hu (ix1 j) = ∑ i : Fin n, x (ix2 i j) := by
  rw [hostReduceAdd_apply, Ideal.hostReduceAdd_single h' h, constant_apply, Ideal.ofBits_zero_f32, zero_add]
  refine Finset.sum_congr rfl fun k _ => congrArg x (funext fun c => ?_)
  match c with
  | ⟨0, _⟩ => rfl
  | ⟨1, _⟩ => rfl
theorem hostRsqrt_apply {s : Shape} (v : FVec Ideal s .f32) (i : s.Idx) : Host.rsqrt (F := Ideal) v i = Ideal.rsqrt (v i) := rfl
section Casts
variable {Val : EltTy → Type} {T : BufTy}
theorem ofBuf_toBuf (x : TRef sig T) (v : T.Contents Val) : x.ofBuf (x.toBuf v) = v := by
  obtain ⟨r, h, h₂, h₃⟩ := x
  subst h
  rfl
end Casts
section Reads
variable {n : ℕ} (hr : (⟨2, ![n, 128]⟩ : Shape).ReducesTo [0] S128) (h : (⟨2, ![n, 128]⟩ : Shape).Reduces [0] S128)
  (hb : S1x128.BroadcastsInDim ⟨2, ![n, 128]⟩ (![0, 1] : Fin 2 → Fin (⟨2, ![n, 128]⟩ : Shape).rank))
  (hb0 : S_.BroadcastsInDim ⟨2, ![n, 128]⟩ (![] : Fin 0 → Fin (⟨2, ![n, 128]⟩ : Shape).rank))
  (cw ew : BitVec 32) (x xin : FVec Ideal ⟨2, ![n, 128]⟩ .f32) (g b : FVec Ideal S128 .f32)
-- batch normalisation over n rows as the reference writes it: column mean, deviation, column variance, scale and shift, max with zero
def pMean : FVec Ideal S128 .f32 :=
  Host.divf (Host.reduceAdd x (constant (F := Ideal) S_ .f32 0x00000000#32) hr h_S_)
    (broadcastInDim S128 ![] bcast_S_S128 (constant (F := Ideal) S_ .f32 cw))
def pMeanRow : FVec Ideal S1x128 .f32 :=
  Host.divf (broadcastInDim S1x128 ![1] bcast_S128_S1x128_1 (Host.reduceAdd x (constant (F := Ideal) S_ .f32 0x00000000#32) hr h_S_))
    (broadcastInDim S1x128 ![] bcast_S_S1x128 (constant (F := Ideal) S_ .f32 cw))
def pDev : FVec Ideal ⟨2, ![n, 128]⟩ .f32 :=
  subf x (broadcastInDim ⟨2, ![n, 128]⟩ ![0, 1] hb (pMeanRow hr cw x))
def pCnt : FVec Ideal S_ .f32 :=
  subf (constant (F := Ideal) S_ .f32 cw) (sitofp .f32 (constantI S_ 32 0#32))
def pQuot : FVec Ideal S128 .f32 :=
  Host.divf (Host.reduceAdd (mulf (pDev hr hb cw x) (pDev hr hb cw x)) (constant (F := Ideal) S_ .f32 0x00000000#32) hr h_S_)
    (broadcastInDim S128 ![] bcast_S_S128 (pCnt cw))
def pVar : FVec Ideal S128 .f32 :=
  select (broadcastInDim S128 ![] bcast_S_S128 (cmpf .ogt (pCnt cw) (constant (F := Ideal) S_ .f32 0x00000000#32)))
    (pQuot hr hb cw x)
    (broadcastInDim S128 ![] bcast_S_S128 (id (constant (F := Ideal) S_ .f32 0x7FC00000#32)))
def pOut : FVec Ideal ⟨2, ![n, 128]⟩ .f32 :=
  maximumf
    (addf
      (mulf
        (mulf
          (subf x (broadcastInDim ⟨2, ![n, 128]⟩ ![0, 1] hb (broadcastInDim S1x128 ![1] bcast_S128_S1x128_1 (pMean hr cw x))))
          (broadcastInDim ⟨2, ![n, 128]⟩ ![0, 1] hb (broadcastInDim S1x128 ![1] bcast_S128_S1x128_1
            (Host.rsqrt (addf (pVar hr hb cw x) (broadcastInDim S128 ![] bcast_S_S128 (constant (F := Ideal) S_ .f32 ew)))))))
        (broadcastInDim ⟨2, ![n, 128]⟩ ![0, 1] hb (broadcastInDim S1x128 ![1] bcast_S128_S1x128_1 g)))
      (broadcastInDim ⟨2, ![n, 128]⟩ ![0, 1] hb (broadcastInDim S1x128 ![1] bcast_S128_S1x128_1 b)))
    (broadcastInDim ⟨2, ![n, 128]⟩ ![] hb0 (constant (F := Ideal) S_ .f32 0x00000000#32))
include h
theorem pMean_apply (j : Fin 128) :
    pMean hr cw x (ix1 j) = Cert.Spec.colMean (fun i j => x (ix2 i j)) (Ideal.ofBits .f32 cw) j := by
  unfold pMean Cert.Spec.colMean
  rw [hostDivf_apply, colsum_read hr h, broadcastInDim_scalar_apply, constant_apply]
theorem pMeanRow_apply (j : Fin 128) :
    pMeanRow hr cw x (ix2 (0 : Fin 1) j) = Cert.Spec.colMean (fun i j => x (ix2 i j)) (Ideal.ofBits .f32 cw) j := by
  unfold pMeanRow Cert.Spec.colMean
  rw [hostDivf_apply, row_of_vec, colsum_read hr h, broadcastInDim_scalar_apply, constant_apply]
theorem pDev_apply (i : Fin n) (j : Fin 128) :
    pDev hr hb cw x (ix2 i j) = x (ix2 i j) - Cert.Spec.colMean (fun i j => x (ix2 i j)) (Ideal.ofBits .f32 cw) j := by
  unfold pDev
  rw [subf_apply, rows_of_row, pMeanRow_apply hr h]
omit h in
theorem pCnt_apply : pCnt cw ix0 = Ideal.ofBits .f32 cw := by
  unfold pCnt
  rw [subf_apply, constant_apply, sitofp_apply]
  show Ideal.ofBits .f32 cw - (((0#32 : BitVec 32).toInt : ℝ) : EReal) = _
  simp
theorem pQuot_apply (j : Fin 128) :
    pQuot hr hb cw x (ix1 j) = Cert.Spec.colVar (fun i j => x (ix2 i j)) (Ideal.ofBits .f32 cw) j := by
  unfold pQuot Cert.Spec.colVar
  rw [hostDivf_apply, colsum_read hr h, broadcastInDim_scalar_apply, pCnt_apply]
  congr 1
  refine Finset.sum_congr rfl fun i _ => ?_
  rw [mulf_apply, pDev_apply hr h]
-- the count is positive, so the guarded quotient is the column variance itself
theorem pVar_apply (hc : 0 < Ideal.ofBits .f32 cw) (j : Fin 128) :
    pVar hr hb cw x (ix1 j) = Cert.Spec.colVar (fun i j => x (ix2 i j)) (Ideal.ofBits .f32 cw) j := by
  unfold pVar
  rw [select_apply, broadcastInDim_scalar_apply, cmpf_apply, pCnt_apply, constant_apply, Ideal.ofBits_zero_f32]
  have hbit : FloatOps.cmpf (F := Ideal) (φ := .f32) .ogt (Ideal.ofBits .f32 cw) (0 : EReal) = 1#1 := by
    show Ideal.cmp .ogt _ _ = _
    simp [Ideal.cmp, hc]
  rw [hbit, select_one, pQuot_apply hr h]
theorem pOut_apply (hc : 0 < Ideal.ofBits .f32 cw) (i : Fin n) (j : Fin 128) :
    xin (ix2 i j) + pOut hr hb hb0 cw ew x g b (ix2 i j)
      = Cert.Spec.bnRelu (fun i j => x (ix2 i j)) (fun i j => xin (ix2 i j)) (Ideal.ofBits .f32 cw) (Ideal.ofBits .f32 ew)
          (fun j => g (ix1 j)) (fun j => b (ix1 j)) i j := by
  unfold pOut Cert.Spec.bnRelu
  rw [maximumf_apply, addf_apply, mulf_apply, mulf_apply, subf_apply,
    rows_of_row, row_of_vec, pMean_apply hr h,
    rows_of_row, row_of_vec, hostRsqrt_apply, addf_apply, pVar_apply hr h hb cw x hc, broadcastInDim_scalar_apply, constant_apply,
    rows_of_row, row_of_vec, rows_of_row, row_of_vec,
    broadcastInDim_scalar_apply, constant_apply, Ideal.ofBits_zero_f32]
end Reads
section Run
variable {F : FTy → Type} [FloatOps F]
abbrev aggMean : List (HloOp τ sig (Elt F)) :=
  [ nullary main_cst_9 (constant S_ .f32 0x00000000#32),
    binary main_v59 main_cst_9 main_v60 ((fun x v => Host.reduceAdd x v reducesTo_S50000x128_S128_d0 h_S_) : NodeT F → ScalarT F → VecT F),
    nullary main_cst_10 (constant S_ .f32 0x47435000#32),
    unary main_cst_10 main_v61 (broadcastInDim S128 ![] bcast_S_S128 : ScalarT F → VecT F),
    binary main_v60 main_v61 main_v62 (Host.divf : VecT F → VecT F → VecT F),
    nullary main_c_11 (constantI S_ 32 0#32) ]
theorem agg_split : (opsAggregate : List (HloOp τ sig (Elt F))) = opsAggregate.take 11 ++ aggMean := rfl
end Run
section Chain
variable (X : Valuation τ sig (Elt Ideal))
local notation "Y" => StableHlo.after (RefRun.ops (F := Ideal)) X
def Z₁ : Valuation τ sig (Elt Ideal) := after (opsAggregate.take 11) (after window0 X)
def Z₂ : Valuation τ sig (Elt Ideal) := after opsNodeRelu (after opsNodeNorm (after opsNodeVar (after aggMean (Z₁ X))))
def Z₃ : Valuation τ sig (Elt Ideal) := after opsEdgeRelu (after opsEdgeNorm (after opsEdgeVar (after opsEdgeMean (Z₂ X))))
theorem run_stages : after (ops (F := Ideal)) X = after opsEdgeOut (after opsNodeOut (Z₃ X)) := by
  rw [after_ops, after_window1, agg_split, StableHlo.after_append]
  rfl
theorem end_X (r : Ref sig .tc) (h : r ∉ written) :
    after (ops (F := Ideal)) X (Proc.devRef .tc r) = X (Proc.devRef .tc r) :=
  after_of_writes_sub ops X ops_writes h
-- each result is its input plus the normalised new features
set_option maxRecDepth 8192 in
theorem end_v100 :
    Y (Proc.devRef .tc main_v100)
      = addf (F := Ideal) (s := S50000x128) (φ := .f32) (Y (Proc.devRef .tc main_arg0))
          (pOut reducesTo_S50000x128_S128_d0 bcast_S1x128_S50000x128_0_1 bcast_S_S50000x128 0x47435000#32 0x3727C5AC#32
            (Y (Proc.devRef .tc main_v59)) (Y (Proc.devRef .tc main_arg14)) (Y (Proc.devRef .tc main_arg15))) := by
  rw [run_stages]
  unfold Z₃ Z₂
  generalize Z₁ X = V
  after_results_simp
  simp only [ofBuf_toBuf]
  rfl
set_option maxRecDepth 8192 in
theorem end_v101 :
    Y (Proc.devRef .tc main_v101)
      = addf (F := Ideal) (s := S500000x128) (φ := .f32) (Y (Proc.devRef .tc main_arg1))
          (pOut reducesTo_S500000x128_S128_d0 bcast_S1x128_S500000x128_0_1 bcast_S_S500000x128 0x48F42400#32 0x3727C5AC#32
            (Y (Proc.devRef .tc main_v35)) (Y (Proc.devRef .tc main_arg16)) (Y (Proc.devRef .tc main_arg17))) := by
  rw [run_stages]
  unfold Z₃
  generalize Z₂ X = V
  after_results_simp
  simp only [ofBuf_toBuf]
  rfl
theorem cntN_pos : 0 < Ideal.ofBits .f32 0x47435000#32 := by
  rw [Cert.Consts.ofBits_50000]
  exact EReal.coe_pos.mpr (by norm_num)
theorem cntE_pos : 0 < Ideal.ofBits .f32 0x48F42400#32 := by
  rw [Cert.Consts.ofBits_500000]
  exact EReal.coe_pos.mpr (by norm_num)
theorem bn_h_read (i : Fin 50000) (j : Fin 128) :
    (Y (Proc.devRef .tc main_v100) : S50000x128.Idx → EReal) (ix2 i j)
      = Cert.Spec.bnRelu (fun i j => (Y (Proc.devRef .tc main_v59) : S50000x128.Idx → EReal) (ix2 i j))
          (fun i j => (X (Proc.devRef .tc main_arg0) : S50000x128.Idx → EReal) (ix2 i j))
          (Ideal.ofBits .f32 0x47435000#32) (Ideal.ofBits .f32 0x3727C5AC#32)
          (fun j => (X (Proc.devRef .tc main_arg14) : S128.Idx → EReal) (ix1 j))
          (fun j => (X (Proc.devRef .tc main_arg15) : S128.Idx → EReal) (ix1 j)) i j := by
  rw [end_v100, addf_apply, end_X X main_arg0 (by decide), end_X X main_arg14 (by decide), end_X X main_arg15 (by decide)]
  exact pOut_apply _ (by decide) _ _ _ _ _ _ _ _ cntN_pos i j
theorem bn_e_read (i : Fin 500000) (j : Fin 128) :
    (Y (Proc.devRef .tc main_v101) : S500000x128.Idx → EReal) (ix2 i j)
      = Cert.Spec.bnRelu (fun i j => (Y (Proc.devRef .tc main_v35) : S500000x128.Idx → EReal) (ix2 i j))
          (fun i j => (X (Proc.devRef .tc main_arg1) : S500000x128.Idx → EReal) (ix2 i j))
          (Ideal.ofBits .f32 0x48F42400#32) (Ideal.ofBits .f32 0x3727C5AC#32)
          (fun j => (X (Proc.devRef .tc main_arg16) : S128.Idx → EReal) (ix1 j))
          (fun j => (X (Proc.devRef .tc main_arg17) : S128.Idx → EReal) (ix1 j)) i j := by
  rw [end_v101, addf_apply, end_X X main_arg1 (by decide), end_X X main_arg16 (by decide), end_X X main_arg17 (by decide)]
  exact pOut_apply _ (by decide) _ _ _ _ _ _ _ _ cntE_pos i j
end Chain
end Cert.ReferenceIdeal.RefRead
end
-- ==== Proof.LibGatherClamp.lean ====
import Idealize.ShloMosaic.PureOps
import Idealize.ShloMosaic.Lib.ValueIdx
namespace Idealize.ShloMosaic.GatherClamp
open Idealize.ShloMosaic
theorem wrap_of_nonneg (q n : BitVec 32) (h : 0 ≤ q.toInt) :
    Scalar.select (IntOp.cmpi .slt q 0#32) (IntOp.addi q n) q = q := by
  have hs : q.slt 0#32 = false := by
    simp only [BitVec.slt, show (0#32 : BitVec 32).toInt = 0 by decide, decide_eq_false_iff_not]; omega
  have hc : IntOp.cmpi .slt q 0#32 = 0#1 := by unfold IntOp.cmpi; rw [hs]; rfl
  rw [hc]; exact ValueIdx.select_zero _ _
end Idealize.ShloMosaic.GatherClamp
-- ==== Proof.Ref.Read1.lean ====
import proofs.«413210_j12120397710134_3_alg».proof.Proof.Ref.Read2
import proofs.«413210_j12120397710134_3_alg».proof.Proof.LibContract
import proofs.«413210_j12120397710134_3_alg».proof.Proof.LibGatherRow
import proofs.«413210_j12120397710134_3_alg».proof.Proof.LibGatherClamp
import proofs.«413210_j12120397710134_3_alg».proof.Proof.LibScatterRows
import Idealize.ShloMosaic.PureOps.Ideal.Laws
noncomputable section
open scoped BigOperators
namespace Cert.ReferenceIdeal.RefRead
open Cert.ReferenceIdeal Idealize.ShloMosaic Idealize.ShloMosaic.ValueIdx Idealize.ShloMosaic.StableHlo
abbrev argsX1 (X : Valuation τ sig (Elt Ideal)) : Cert.Spec.Args :=
  Cert.Spec.mkArgs (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16)) (X (Proc.devRef .tc main_arg17))
section Pure
variable [Facts₀]
-- a vector laid out as a one-column matrix reads back entry by entry
theorem col_of_vec_read {α : Type} (h : S500000.BroadcastsInDim S500000x1 ![0]) (v : S500000.Idx → α) (p : Fin 500000) :
    broadcastInDim S500000x1 ![0] h v (ix2 p (0 : Fin 1)) = v (ix1 p) :=
  broadcastInDim_apply _ h v _ (ix1 p) fun a => match a with | ⟨0, _⟩ => rfl
-- a matrix product plus a bias row, read at one entry, is the affine map `lin`
theorem affineN_read (x : FVec Ideal S50000x128 .f32) (w : FVec Ideal S128x128 .f32) (b : FVec Ideal S128 .f32)
    (h₁ : S128.BroadcastsInDim S1x128 ![1]) (h₂ : S1x128.BroadcastsInDim S50000x128 ![0, 1]) (n : Fin 50000) (j : Fin 128) :
    addf (Host.dotGeneral dot_S50000x128_S128x128_S50000x128_1_0_0_1_n_n none x w)
        (broadcastInDim S50000x128 ![0, 1] h₂ (broadcastInDim S1x128 ![1] h₁ b)) (ix2 n j)
      = Cert.Spec.lin (fun i k => x (ix2 i k)) (fun k c => w (ix2 k c)) (fun c => b (ix1 c)) n j := by
  rw [addf_apply, rows_of_row, row_of_vec]
  simp only [Host.dotGeneral]
  rw [Contract.dotGeneral_rows_cols _ _ _ rfl rfl rfl rfl rfl rfl rfl rfl]
  rfl
theorem affineE_read (x : FVec Ideal S500000x128 .f32) (w : FVec Ideal S128x128 .f32) (b : FVec Ideal S128 .f32)
    (h₁ : S128.BroadcastsInDim S1x128 ![1]) (h₂ : S1x128.BroadcastsInDim S500000x128 ![0, 1]) (r : Fin 500000) (j : Fin 128) :
    addf (Host.dotGeneral dot_S500000x128_S128x128_S500000x128_1_0_0_1_n_n none x w)
        (broadcastInDim S500000x128 ![0, 1] h₂ (broadcastInDim S1x128 ![1] h₁ b)) (ix2 r j)
      = Cert.Spec.lin (fun i k => x (ix2 i k)) (fun k c => w (ix2 k c)) (fun c => b (ix1 c)) r j := by
  rw [addf_apply, rows_of_row, row_of_vec]
  simp only [Host.dotGeneral]
  rw [Contract.dotGeneral_rows_cols _ _ _ rfl rfl rfl rfl rfl rfl rfl rfl]
  rfl
theorem gatherDims_eq : gather_S50000x128_S500000x1_S500000x128_1_0_n_n_0_1_1128
    = GatherRow.dims 50000 128 500000 Facts₀.gather_S50000x128_S500000x1_S500000x128_1_0_n_n_0_1_1128_wf := rfl
-- a non-negative index is left alone by the wrap-around, so the gather reads row `rowOf idx r` of the table
theorem gatherWrapped_read (tbl : FVec Ideal S50000x128 .f32) (idx : IVec S500000 32)
    (h₀ h₁ : S_.BroadcastsInDim S500000 ![]) (h₂ : S500000.BroadcastsInDim S500000x1 ![0])
    (hnn : ∀ r : Fin 500000, 0 ≤ (idx (ix1 r)).toInt) (r : Fin 500000) (j : Fin 128) :
    Host.gather gather_S50000x128_S500000x1_S500000x128_1_0_n_n_0_1_1128 tbl
        (broadcastInDim S500000x1 ![0] h₂
          (select (cmpi .slt idx (broadcastInDim S500000 ![] h₀ (constantI S_ 32 0#32)))
            (addi idx (broadcastInDim S500000 ![] h₁ (constantI S_ 32 50000#32))) idx)) (ix2 r j)
      = tbl (ix2 (Cert.Spec.rowOf idx r) j) := by
  rw [gatherDims_eq, GatherRow.gather_row_apply (by decide : 0 < 50000)]
  exact congrArg (fun q => tbl (ix2 q j))
    (Fin.ext (congrArg (fun w : BitVec 32 => min w.toInt.toNat 49999)
      ((col_of_vec_read h₂ _ r).trans (GatherClamp.wrap_of_nonneg (idx (ix1 r)) 50000#32 (hnn r)))))
-- 1 / (1 + exp (-x)) is the logistic function
theorem gate_read (x : FVec Ideal S500000x128 .f32) (h h' : S_.BroadcastsInDim S500000x128 ![]) (i : S500000x128.Idx) :
    Host.divf (broadcastInDim S500000x128 ![] h' (constant S_ .f32 0x3F800000#32))
        (addf (broadcastInDim S500000x128 ![] h (constant S_ .f32 0x3F800000#32)) (Host.exp (Host.negf x))) i
      = Ideal.logistic (x i) := by
  show Ideal.div (Ideal.ofBits .f32 0x3F800000#32) (Ideal.ofBits .f32 0x3F800000#32 + Ideal.exp (-(x i))) = _
  rw [Cert.Consts.ofBits_one]
  rfl
theorem scatterDims_eq : scatter_S50000x128_S500000x1_S500000x128_1_0_0_1
    = ScatterRows.rowDims 50000 128 500000 Facts₀.scatter_S50000x128_S500000x1_S500000x128_1_0_0_1_wf := rfl
-- scatter-add into rows: entry (n, j) gains entry j of every update row whose index is n
theorem scatterRows_read (x : FVec Ideal S50000x128 .f32) (idx : IVec S500000 32) (upd : FVec Ideal S500000x128 .f32)
    (h₂ : S500000.BroadcastsInDim S500000x1 ![0])
    (hr : ∀ r : Fin 500000, 0 ≤ (idx (ix1 r)).toInt ∧ (idx (ix1 r)).toInt < 50000) (n : Fin 50000) (j : Fin 128) :
    Host.scatterAdd scatter_S50000x128_S500000x1_S500000x128_1_0_0_1 x (broadcastInDim S500000x1 ![0] h₂ idx) upd (ix2 n j)
      = x (ix2 n j) + ∑ r : Fin 500000, if Cert.Spec.rowOf idx r = n then upd (ix2 r j) else 0 := by
  unfold Host.scatterAdd
  rw [Ideal.hostScatterAdd_def, scatterDims_eq, ScatterRows.hostScatterAdd_rows]
  refine congrArg (x (ix2 n j) + ·) (Finset.sum_congr rfl fun b _ => if_congr ?_ rfl rfl)
  rw [col_of_vec_read, ← Cert.Spec.rowOf_val_of_range idx b (hr b).1 (hr b).2]
  constructor
  · intro h; exact Fin.ext (by exact_mod_cast h)
  · intro h; rw [h]
theorem zeros_read (h₀ : S_.BroadcastsInDim S50000x128 ![]) (i : S50000x128.Idx) :
    (broadcastInDim S50000x128 ![] h₀ (constant S_ .f32 0x00000000#32) : FVec Ideal S50000x128 .f32) i = 0 := by
  rw [broadcastInDim_scalar_apply, constant_apply, Ideal.ofBits_zero_f32]
end Pure
section Stretches
variable (V : Valuation τ sig (Elt Ideal)) (src dst : S500000.Idx → BitVec 32)
-- an edge's new feature: the row of D at its source plus the row of E at its target plus its own row of C
theorem edge_eNew (D E : Fin 50000 → Fin 128 → EReal) (C : Fin 500000 → Fin 128 → EReal)
    (h2 : (V (Proc.devRef .tc main_arg2) : S500000.Idx → BitVec 32) = src)
    (h3 : (V (Proc.devRef .tc main_arg3) : S500000.Idx → BitVec 32) = dst)
    (hD : ∀ n j, (V (Proc.devRef .tc main_v11) : S50000x128.Idx → EReal) (ix2 n j) = D n j)
    (hE : ∀ n j, (V (Proc.devRef .tc main_v15) : S50000x128.Idx → EReal) (ix2 n j) = E n j)
    (hC : ∀ r j, (V (Proc.devRef .tc main_v19) : S500000x128.Idx → EReal) (ix2 r j) = C r j)
    (hs : ∀ r, 0 ≤ (src r).toInt) (hd : ∀ r, 0 ≤ (dst r).toInt) (r : Fin 500000) (j : Fin 128) :
    (after (RefRun.opsEdge (F := Ideal)) V (Proc.devRef .tc main_v35) : S500000x128.Idx → EReal) (ix2 r j)
      = (D (Cert.Spec.rowOf src r) j + E (Cert.Spec.rowOf dst r) j) + C r j := by
  subst h2 h3
  after_results_simp
  rw [addf_apply, addf_apply, gatherWrapped_read _ _ _ _ _ fun r => hs (ix1 r), gatherWrapped_read _ _ _ _ _ fun r => hd (ix1 r),
    hD, hE, hC]
theorem gate_sig (r : Fin 500000) (j : Fin 128) :
    (after (RefRun.opsGate (F := Ideal)) V (Proc.devRef .tc main_v41) : S500000x128.Idx → EReal) (ix2 r j)
      = Ideal.logistic ((V (Proc.devRef .tc main_v35) : S500000x128.Idx → EReal) (ix2 r j)) := by
  after_results_simp
  rw [gate_read]
theorem message_msg (B : Fin 50000 → Fin 128 → EReal) (s : Fin 500000 → Fin 128 → EReal)
    (h2 : (V (Proc.devRef .tc main_arg2) : S500000.Idx → BitVec 32) = src)
    (hB : ∀ n j, (V (Proc.devRef .tc main_v7) : S50000x128.Idx → EReal) (ix2 n j) = B n j)
    (hσ : ∀ r j, (V (Proc.devRef .tc main_v41) : S500000x128.Idx → EReal) (ix2 r j) = s r j)
    (hs : ∀ r, 0 ≤ (src r).toInt) (r : Fin 500000) (j : Fin 128) :
    (after (RefRun.opsMessage (F := Ideal)) V (Proc.devRef .tc main_v49) : S500000x128.Idx → EReal) (ix2 r j)
      = B (Cert.Spec.rowOf src r) j * s r j := by
  subst h2
  after_results_simp
  rw [mulf_apply, gatherWrapped_read _ _ _ _ _ fun r => hs (ix1 r), hB, hσ]
theorem message_zero (i : S50000x128.Idx) :
    (after (RefRun.opsMessage (F := Ideal)) V (Proc.devRef .tc main_v50) : S50000x128.Idx → EReal) i = (0 : EReal) := by
  after_results_simp
  exact zeros_read _ i
-- a node's new feature: A plus the gated messages summed over its incoming edges, divided by the summed gates plus a small constant
theorem aggregate_hNew (A : Fin 50000 → Fin 128 → EReal) (m s : Fin 500000 → Fin 128 → EReal)
    (h3 : (V (Proc.devRef .tc main_arg3) : S500000.Idx → BitVec 32) = dst)
    (hA : ∀ n j, (V (Proc.devRef .tc main_v3) : S50000x128.Idx → EReal) (ix2 n j) = A n j)
    (hm : ∀ r j, (V (Proc.devRef .tc main_v49) : S500000x128.Idx → EReal) (ix2 r j) = m r j)
    (hσ : ∀ r j, (V (Proc.devRef .tc main_v41) : S500000x128.Idx → EReal) (ix2 r j) = s r j)
    (hz : ∀ i, (V (Proc.devRef .tc main_v50) : S50000x128.Idx → EReal) i = (0 : EReal))
    (hd : ∀ r, 0 ≤ (dst r).toInt ∧ (dst r).toInt < 50000) (n : Fin 50000) (j : Fin 128) :
    (after (RefRun.opsAggregate (F := Ideal)) V (Proc.devRef .tc main_v59) : S50000x128.Idx → EReal) (ix2 n j)
      = A n j + Ideal.div (∑ r : Fin 500000, if Cert.Spec.rowOf dst r = n then m r j else 0)
          ((∑ r : Fin 500000, if Cert.Spec.rowOf dst r = n then s r j else 0) + Ideal.ofBits .f32 0x358637BD#32) := by
  subst h3
  after_results_simp
  show @Eq EReal _ _
  rw [addf_apply, hostDivf_apply, addf_apply, scatterRows_read _ _ _ _ fun r => hd (ix1 r),
    scatterRows_read _ _ _ _ fun r => hd (ix1 r), hz, zeros_read, zero_add, zero_add, hA, broadcastInDim_scalar_apply, constant_apply]
  simp only [hm, hσ]
end Stretches
section Whole
variable (X : Valuation τ sig (Elt Ideal))
local notation "Y" => StableHlo.after (RefRun.ops (F := Ideal)) X
local notation "V₁" => StableHlo.after (RefRun.opsLinear (F := Ideal)) X
local notation "V₂" => StableHlo.after (RefRun.opsEdge (F := Ideal)) V₁
local notation "V₃" => StableHlo.after (RefRun.opsGate (F := Ideal)) V₂
local notation "V₄" => StableHlo.after (RefRun.opsMessage (F := Ideal)) V₃
local notation "V₅" => StableHlo.after (RefRun.opsAggregate (F := Ideal)) V₄
-- a value that no later group of operations writes is read unchanged after that group
macro "pass_through" : tactic =>
  `(tactic| repeat (first
    | (rw [after_of_writes_sub _ _ (RefRun.opsEdgeOut_writes (F := Ideal))]; rotate_left; decide)
    | (rw [after_of_writes_sub _ _ (RefRun.opsNodeOut_writes (F := Ideal))]; rotate_left; decide)
    | (rw [after_of_writes_sub _ _ (RefRun.opsEdgeRelu_writes (F := Ideal))]; rotate_left; decide)
    | (rw [after_of_writes_sub _ _ (RefRun.opsEdgeNorm_writes (F := Ideal))]; rotate_left; decide)
    | (rw [after_of_writes_sub _ _ (RefRun.opsEdgeVar_writes (F := Ideal))]; rotate_left; decide)
    | (rw [after_of_writes_sub _ _ (RefRun.opsEdgeMean_writes (F := Ideal))]; rotate_left; decide)
    | (rw [after_of_writes_sub _ _ (RefRun.opsNodeRelu_writes (F := Ideal))]; rotate_left; decide)
    | (rw [after_of_writes_sub _ _ (RefRun.opsNodeNorm_writes (F := Ideal))]; rotate_left; decide)
    | (rw [after_of_writes_sub _ _ (RefRun.opsNodeVar_writes (F := Ideal))]; rotate_left; decide)
    | (rw [after_of_writes_sub _ _ (RefRun.opsAggregate_writes (F := Ideal))]; rotate_left; decide)
    | (rw [after_of_writes_sub _ _ (RefRun.opsMessage_writes (F := Ideal))]; rotate_left; decide)
    | (rw [after_of_writes_sub _ _ (RefRun.opsGate_writes (F := Ideal))]; rotate_left; decide)
    | (rw [after_of_writes_sub _ _ (RefRun.opsEdge_writes (F := Ideal))]; rotate_left; decide)
    | (rw [after_of_writes_sub _ _ (RefRun.opsLinear_writes (F := Ideal))]; rotate_left; decide)))
theorem Ah_at (n : Fin 50000) (j : Fin 128) :
    (V₁ (Proc.devRef .tc main_v3) : S50000x128.Idx → EReal) (ix2 n j) = Cert.Spec.Ah (argsX1 X) n j := by
  after_results_simp
  exact affineN_read _ _ _ _ _ n j
theorem Bh_at (n : Fin 50000) (j : Fin 128) :
    (V₁ (Proc.devRef .tc main_v7) : S50000x128.Idx → EReal) (ix2 n j) = Cert.Spec.Bh (argsX1 X) n j := by
  after_results_simp
  exact affineN_read _ _ _ _ _ n j
theorem Dh_at (n : Fin 50000) (j : Fin 128) :
    (V₁ (Proc.devRef .tc main_v11) : S50000x128.Idx → EReal) (ix2 n j) = Cert.Spec.Dh (argsX1 X) n j := by
  after_results_simp
  exact affineN_read _ _ _ _ _ n j
theorem Eh_at (n : Fin 50000) (j : Fin 128) :
    (V₁ (Proc.devRef .tc main_v15) : S50000x128.Idx → EReal) (ix2 n j) = Cert.Spec.Eh (argsX1 X) n j := by
  after_results_simp
  exact affineN_read _ _ _ _ _ n j
theorem Ce_at (r : Fin 500000) (j : Fin 128) :
    (V₁ (Proc.devRef .tc main_v19) : S500000x128.Idx → EReal) (ix2 r j) = Cert.Spec.Ce (argsX1 X) r j := by
  after_results_simp
  exact affineE_read _ _ _ _ _ r j
variable
  (hs : ∀ r : S500000.Idx, 0 ≤ ((X (Proc.devRef .tc main_arg2) : S500000.Idx → BitVec 32) r).toInt
    ∧ ((X (Proc.devRef .tc main_arg2) : S500000.Idx → BitVec 32) r).toInt < 50000)
  (hd : ∀ r : S500000.Idx, 0 ≤ ((X (Proc.devRef .tc main_arg3) : S500000.Idx → BitVec 32) r).toInt
    ∧ ((X (Proc.devRef .tc main_arg3) : S500000.Idx → BitVec 32) r).toInt < 50000)
include hs hd
theorem eNew_at (r : Fin 500000) (j : Fin 128) :
    (V₂ (Proc.devRef .tc main_v35) : S500000x128.Idx → EReal) (ix2 r j) = Cert.Spec.eNew (argsX1 X) r j := by
  rw [edge_eNew V₁ _ _ _ _ _ (by pass_through) (by pass_through) (Dh_at X) (Eh_at X) (Ce_at X) (fun r => (hs r).1)
    (fun r => (hd r).1) r j]
  rfl
theorem sig_at (r : Fin 500000) (j : Fin 128) :
    (V₃ (Proc.devRef .tc main_v41) : S500000x128.Idx → EReal) (ix2 r j) = Cert.Spec.sig (argsX1 X) r j :=
  (gate_sig V₂ r j).trans (congrArg Ideal.logistic (eNew_at X hs hd r j))
theorem msg_at (r : Fin 500000) (j : Fin 128) :
    (V₄ (Proc.devRef .tc main_v49) : S500000x128.Idx → EReal) (ix2 r j)
      = Cert.Spec.Bh (argsX1 X) ((argsX1 X).rs r) j * Cert.Spec.sig (argsX1 X) r j := by
  rw [message_msg V₃ _ (Cert.Spec.Bh (argsX1 X)) _ (by pass_through) (fun n j => by pass_through; exact Bh_at X n j) (sig_at X hs hd)
    (fun r => (hs r).1) r j]
  rfl
theorem eNew_read (r : Fin 500000) (j : Fin 128) :
    (Y (Proc.devRef .tc main_v35) : S500000x128.Idx → EReal) (ix2 r j) = Cert.Spec.eNew (argsX1 X) r j := by
  rw [RefRun.after_ops, RefRun.after_window0, RefRun.after_window1]; pass_through; exact eNew_at X hs hd r j
theorem hNew_read (n : Fin 50000) (j : Fin 128) :
    (Y (Proc.devRef .tc main_v59) : S50000x128.Idx → EReal) (ix2 n j) = Cert.Spec.hNew (argsX1 X) n j := by
  rw [RefRun.after_ops, RefRun.after_window0, RefRun.after_window1]; pass_through
  exact aggregate_hNew V₄ _ (Cert.Spec.Ah (argsX1 X)) _ (Cert.Spec.sig (argsX1 X)) (by pass_through)
    (fun n j => by pass_through; exact Ah_at X n j) (msg_at X hs hd) (fun r j => by pass_through; exact sig_at X hs hd r j)
    (message_zero V₃) hd n j
end Whole
end Cert.ReferenceIdeal.RefRead
end
-- ==== Proof.Ref.Final.lean ====
import proofs.«413210_j12120397710134_3_alg».proof.Proof.Ref.Read1
import proofs.«413210_j12120397710134_3_alg».proof.Proof.Ref.Read2
noncomputable section
namespace Cert.ReferenceIdeal.RefRead
open Cert.ReferenceIdeal Idealize.ShloMosaic Idealize.ShloMosaic.ValueIdx
abbrev argsX (X : Valuation τ sig (Elt Ideal)) : Cert.Spec.Args :=
  Cert.Spec.mkArgs (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_arg16)) (X (Proc.devRef .tc main_arg17))
variable (X : Valuation τ sig (Elt Ideal))
local notation "Y" => StableHlo.after (RefRun.ops (F := Ideal)) X
variable (hs : ∀ r : S500000.Idx, 0 ≤ ((X (Proc.devRef .tc main_arg2) : S500000.Idx → BitVec 32) r).toInt
    ∧ ((X (Proc.devRef .tc main_arg2) : S500000.Idx → BitVec 32) r).toInt < 50000)
  (hd : ∀ r : S500000.Idx, 0 ≤ ((X (Proc.devRef .tc main_arg3) : S500000.Idx → BitVec 32) r).toInt
    ∧ ((X (Proc.devRef .tc main_arg3) : S500000.Idx → BitVec 32) r).toInt < 50000)
include hs hd
theorem out_h_fun : (Y (Proc.devRef .tc main_v100) : S50000x128.Idx → EReal) = Cert.Spec.arr2 (Cert.Spec.outH (argsX X)) := by
  funext i
  obtain ⟨p, q, rfl⟩ : ∃ (p : Fin 50000) (q : Fin 128), i = ix2 p q := ⟨i 0, i 1, eq_ix2 i⟩
  rw [bn_h_read X p q, Cert.Spec.arr2_ix2,
    show (fun (i : Fin 50000) (j : Fin 128) => (Y (Proc.devRef .tc main_v59) : S50000x128.Idx → EReal) (ix2 i j)) = Cert.Spec.hNew (argsX X)
      from funext₂ (hNew_read X hs hd)]
  rfl
theorem out_e_fun : (Y (Proc.devRef .tc main_v101) : S500000x128.Idx → EReal) = Cert.Spec.arr2 (Cert.Spec.outE (argsX X)) := by
  funext i
  obtain ⟨p, q, rfl⟩ : ∃ (p : Fin 500000) (q : Fin 128), i = ix2 p q := ⟨i 0, i 1, eq_ix2 i⟩
  rw [bn_e_read X p q, Cert.Spec.arr2_ix2,
    show (fun (i : Fin 500000) (j : Fin 128) => (Y (Proc.devRef .tc main_v35) : S500000x128.Idx → EReal) (ix2 i j)) = Cert.Spec.eNew (argsX X)
      from funext₂ (eNew_read X hs hd)]
  rfl
end Cert.ReferenceIdeal.RefRead
end
-- ==== Proof.lean ====
/- A gated graph convolution with edge features and batch normalisation. Wherever every float input is finite and
   both endpoint lists hold node rows, the kernel program and the reference leave the same two arrays, the
   specification's outH and outE of the arguments; each program runs to the end and leaves its arguments unchanged. -/
import proofs.«413210_j12120397710134_3_alg».proof.Defs
import proofs.«413210_j12120397710134_3_alg».proof.Proof.Gen.Kernel
import proofs.«413210_j12120397710134_3_alg».proof.Proof.Gen.KernelIdeal
import proofs.«413210_j12120397710134_3_alg».proof.Proof.Gen.ReferenceIdeal
import proofs.«413210_j12120397710134_3_alg».proof.Proof.Gen.Pre_finite_inputs
import proofs.«413210_j12120397710134_3_alg».proof.Proof.K.Run
import proofs.«413210_j12120397710134_3_alg».proof.Proof.KI.Run
import proofs.«413210_j12120397710134_3_alg».proof.Proof.KI.Chain3
import proofs.«413210_j12120397710134_3_alg».proof.Proof.Ref.Final
noncomputable section
namespace Cert.Proof
open Idealize.ShloMosaic Idealize.SL.Sem
attribute [local instance] Cert.Kernel.Gen.facts Cert.KernelIdeal.Gen.facts Cert.ReferenceIdeal.Gen.facts
  Cert.Pre_finite_inputs.Gen.facts
theorem frame_k : Cert.frame_Kernel := fun m ρ _ =>
  (θ_run Cert.Kernel.defs _ _).mono (fun _ h c => by
    refine ⟨?_, ?_, ?_, ?_, ?_, ?_, ?_, ?_, ?_, ?_, ?_, ?_, ?_, ?_, ?_, ?_, ?_, ?_⟩ <;>
      exact (h c _ (Cert.Kernel.Hand.mem_uc _ (by decide))).trans (Cert.Kernel.Hand.W13_arg m ρ c _ (by decide)))
    (Cert.Kernel.Hand.run (F := Bits) m ρ)
theorem frame_ki : Cert.frame_KernelIdeal := fun m ρ _ =>
  (θ_run Cert.KernelIdeal.defs _ _).mono (fun _ h c => by
    refine ⟨?_, ?_, ?_, ?_, ?_, ?_, ?_, ?_, ?_, ?_, ?_, ?_, ?_, ?_, ?_, ?_, ?_, ?_⟩ <;>
      exact (h c _ (Cert.KernelIdeal.Hand.mem_uc _ (by decide))).trans (Cert.KernelIdeal.Hand.W13_arg m ρ c _ (by decide)))
    (Cert.KernelIdeal.Hand.run (F := Ideal) m ρ)
theorem frame_r : Cert.frame_ReferenceIdeal := fun m ρ _ =>
  (θ_run Cert.ReferenceIdeal.defs _ _).mono (fun r h c => by
    refine ⟨?_, ?_, ?_, ?_, ?_, ?_, ?_, ?_, ?_, ?_, ?_, ?_, ?_, ?_, ?_, ?_, ?_, ?_⟩ <;>
      exact (h c _).trans (Cert.ReferenceIdeal.RefRun.after_of_not_written m c _ (by decide)))
    (Cert.ReferenceIdeal.RefRun.run (F := Ideal) m ρ)
theorem algebraic : Cert.algebraic_KernelIdeal_ReferenceIdeal := by
  intro m ρ m' ρ' hpre hagree
  refine ⟨fun c => Cert.Spec.arr2 (Cert.Spec.outH (Cert.KernelIdeal.HandValue.argsOf m c)),
    fun c => Cert.Spec.arr2 (Cert.Spec.outE (Cert.KernelIdeal.HandValue.argsOf m c)), ?_, ?_⟩
  ·
    refine (θ_run Cert.KernelIdeal.defs _ _).mono (fun r h c => ?_) (Cert.KernelIdeal.Hand.run (F := Ideal) m ρ)
    refine ⟨(h c _ (Cert.KernelIdeal.Hand.mem_uc Cert.KernelIdeal.main_v47 (by decide))).trans (Cert.KernelIdeal.Chain.v47_fun m ρ c hpre),
      (h c _ (Cert.KernelIdeal.Hand.mem_uc Cert.KernelIdeal.main_v50 (by decide))).trans (Cert.KernelIdeal.Chain.v50_fun m ρ c hpre),
      ?_, ?_, ?_, ?_, ?_, ?_, ?_, ?_, ?_, ?_, ?_, ?_, ?_, ?_, ?_, ?_, ?_, ?_⟩ <;>
      exact (h c _ (Cert.KernelIdeal.Hand.mem_uc _ (by decide))).trans (Cert.KernelIdeal.Hand.W13_arg m ρ c _ (by decide))
  ·
    refine (θ_run Cert.ReferenceIdeal.defs _ _).mono (fun r h c => ?_) (Cert.ReferenceIdeal.RefRun.run (F := Ideal) m' ρ')
    obtain ⟨h0, h1, h2, h3, h4, h5, h6, h7, h8, h9, h10, h11, h12, h13, h14, h15, h16, h17⟩ := hagree c
    have hs := h2 ▸ Cert.KernelIdeal.PreFacts.src_range m hpre c
    have hd := h3 ▸ Cert.KernelIdeal.PreFacts.dst_range m hpre c
    have hargs : Cert.ReferenceIdeal.RefRead.argsX (fun b => m' (c, b)) = Cert.KernelIdeal.HandValue.argsOf m c := by
      unfold Cert.KernelIdeal.HandValue.argsOf Cert.ReferenceIdeal.RefRead.argsX
      congr 1
    refine ⟨(h c Cert.ReferenceIdeal.main_v100).trans ((Cert.ReferenceIdeal.RefRead.out_h_fun (fun b => m' (c, b)) hs hd).trans (congrArg (fun a => Cert.Spec.arr2 (Cert.Spec.outH a)) hargs)),
      (h c Cert.ReferenceIdeal.main_v101).trans ((Cert.ReferenceIdeal.RefRead.out_e_fun (fun b => m' (c, b)) hs hd).trans (congrArg (fun a => Cert.Spec.arr2 (Cert.Spec.outE a)) hargs)),
      ?_, ?_, ?_, ?_, ?_, ?_, ?_, ?_, ?_, ?_, ?_, ?_, ?_, ?_, ?_, ?_, ?_, ?_⟩ <;>
      exact (h c _).trans (Cert.ReferenceIdeal.RefRun.after_of_not_written m' c _ (by decide))
theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩
end Cert.Proof
end
